-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S512x512 : Shape := ⟨2, ![512, 512]⟩
abbrev S32x512 : Shape := ⟨2, ![32, 512]⟩
abbrev S16x32x512 : Shape := ⟨3, ![16, 32, 512]⟩
abbrev S16 : Shape := ⟨1, ![16]⟩
abbrev S_ : Shape := ⟨0, ![]⟩
abbrev S1 : Shape := ⟨1, ![1]⟩
abbrev S1x32x512 : Shape := ⟨3, ![1, 32, 512]⟩

abbrev nBuf : Space → Nat
  | .hbm => 2
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S32x512, .bf16⟩
  | .local _ .vmem, ⟨4, _⟩ => ⟨S16x32x512, .bf16⟩
  | .local _ .vmem, ⟨5, _⟩ => ⟨S16x32x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(13, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier13 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v17 : BitVec 32 := Scalar.addi v2 c15_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v30 : BitVec 32 := Scalar.addi v2 c2_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v43 : BitVec 32 := Scalar.addi v2 c14_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v56 : BitVec 32 := Scalar.addi v2 c3_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v69 : BitVec 32 := Scalar.addi v2 c13_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v82 : BitVec 32 := Scalar.addi v2 c4_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v95 : BitVec 32 := Scalar.addi v2 c12_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v108 : BitVec 32 := Scalar.addi v2 c5_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v121 : BitVec 32 := Scalar.addi v2 c11_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v134 : BitVec 32 := Scalar.addi v2 c6_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v147 : BitVec 32 := Scalar.addi v2 c10_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v160 : BitVec 32 := Scalar.addi v2 c7_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v173 : BitVec 32 := Scalar.addi v2 c9_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v186 : BitVec 32 := Scalar.addi v2 c8_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_139 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v205 : BitVec 32 := Scalar.addi v2 c1_i32_139
  let c16_i32_140 : BitVec 32 := 16#32
  let c0_i32_141 : BitVec 32 := 0#32
  let v206 : BitVec 1 := Scalar.cmpi .eq c16_i32_140 c0_i32_141
  let c1_i32_142 : BitVec 32 := 1#32
  let v207 : BitVec 32 := Scalar.select v206 c1_i32_142 c16_i32_140
  let v208 : BitVec 32 := Scalar.remsi v205 v207
  let c0_i32_144 : BitVec 32 := 0#32
  let v210 : BitVec 1 := Scalar.cmpi .slt v208 c0_i32_144
  let c0_i32_145 : BitVec 32 := 0#32
  let v211 : BitVec 1 := Scalar.cmpi .slt v207 c0_i32_145
  let v212 : BitVec 1 := Scalar.xori v210 v211
  let c0_i32_143 : BitVec 32 := 0#32
  let v209 : BitVec 1 := Scalar.cmpi .ne v208 c0_i32_143
  let v213 : BitVec 1 := Scalar.andi v212 v209
  let v214 : BitVec 32 := Scalar.addi v208 v207
  let v215 : BitVec 32 := Scalar.select v213 v214 v208
  let c32_i32 : BitVec 32 := 32#32
  let v216 : BitVec 32 := Scalar.muli v215 c32_i32
  let c0_i32_153 : BitVec 32 := 0#32
  ![v216.toNat, 0]
def k0_dev16 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_139 : BitVec 32 := 1#32
  let v205 : BitVec 32 := Scalar.addi v2 c1_i32_139
  let c16_i32_140 : BitVec 32 := 16#32
  let c0_i32_141 : BitVec 32 := 0#32
  let v206 : BitVec 1 := Scalar.cmpi .eq c16_i32_140 c0_i32_141
  let c1_i32_142 : BitVec 32 := 1#32
  let v207 : BitVec 32 := Scalar.select v206 c1_i32_142 c16_i32_140
  let v208 : BitVec 32 := Scalar.remsi v205 v207
  let c0_i32_144 : BitVec 32 := 0#32
  let v210 : BitVec 1 := Scalar.cmpi .slt v208 c0_i32_144
  let c0_i32_145 : BitVec 32 := 0#32
  let v211 : BitVec 1 := Scalar.cmpi .slt v207 c0_i32_145
  let v212 : BitVec 1 := Scalar.xori v210 v211
  let c0_i32_143 : BitVec 32 := 0#32
  let v209 : BitVec 1 := Scalar.cmpi .ne v208 c0_i32_143
  let v213 : BitVec 1 := Scalar.andi v212 v209
  let v214 : BitVec 32 := Scalar.addi v208 v207
  let v215 : BitVec 32 := Scalar.select v213 v214 v208
  let c1_i32_149 : BitVec 32 := 1#32
  let v217 : BitVec 32 := Scalar.muli v215 c1_i32_149
  let v218 : BitVec 32 := Scalar.addi c0_i32_150 v217
  v218.toNat
def k0_dev17 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_154 : BitVec 32 := 15#32
  let v226 : BitVec 32 := Scalar.addi v2 c15_i32_154
  let c16_i32_155 : BitVec 32 := 16#32
  let c0_i32_156 : BitVec 32 := 0#32
  let v227 : BitVec 1 := Scalar.cmpi .eq c16_i32_155 c0_i32_156
  let c1_i32_157 : BitVec 32 := 1#32
  let v228 : BitVec 32 := Scalar.select v227 c1_i32_157 c16_i32_155
  let v229 : BitVec 32 := Scalar.remsi v226 v228
  let c0_i32_159 : BitVec 32 := 0#32
  let v231 : BitVec 1 := Scalar.cmpi .slt v229 c0_i32_159
  let c0_i32_160 : BitVec 32 := 0#32
  let v232 : BitVec 1 := Scalar.cmpi .slt v228 c0_i32_160
  let v233 : BitVec 1 := Scalar.xori v231 v232
  let c0_i32_158 : BitVec 32 := 0#32
  let v230 : BitVec 1 := Scalar.cmpi .ne v229 c0_i32_158
  let v234 : BitVec 1 := Scalar.andi v233 v230
  let v235 : BitVec 32 := Scalar.addi v229 v228
  let v236 : BitVec 32 := Scalar.select v234 v235 v229
  let c1_i32_165 : BitVec 32 := 1#32
  let v238 : BitVec 32 := Scalar.muli v236 c1_i32_165
  let v239 : BitVec 32 := Scalar.addi c0_i32_166 v238
  v239.toNat
def k0_dev18 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_170 : BitVec 32 := 2#32
  let v247 : BitVec 32 := Scalar.addi v2 c2_i32_170
  let c16_i32_171 : BitVec 32 := 16#32
  let c0_i32_172 : BitVec 32 := 0#32
  let v248 : BitVec 1 := Scalar.cmpi .eq c16_i32_171 c0_i32_172
  let c1_i32_173 : BitVec 32 := 1#32
  let v249 : BitVec 32 := Scalar.select v248 c1_i32_173 c16_i32_171
  let v250 : BitVec 32 := Scalar.remsi v247 v249
  let c0_i32_175 : BitVec 32 := 0#32
  let v252 : BitVec 1 := Scalar.cmpi .slt v250 c0_i32_175
  let c0_i32_176 : BitVec 32 := 0#32
  let v253 : BitVec 1 := Scalar.cmpi .slt v249 c0_i32_176
  let v254 : BitVec 1 := Scalar.xori v252 v253
  let c0_i32_174 : BitVec 32 := 0#32
  let v251 : BitVec 1 := Scalar.cmpi .ne v250 c0_i32_174
  let v255 : BitVec 1 := Scalar.andi v254 v251
  let v256 : BitVec 32 := Scalar.addi v250 v249
  let v257 : BitVec 32 := Scalar.select v255 v256 v250
  let c1_i32_181 : BitVec 32 := 1#32
  let v259 : BitVec 32 := Scalar.muli v257 c1_i32_181
  let v260 : BitVec 32 := Scalar.addi c0_i32_182 v259
  v260.toNat
def k0_dev19 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_186 : BitVec 32 := 14#32
  let v268 : BitVec 32 := Scalar.addi v2 c14_i32_186
  let c16_i32_187 : BitVec 32 := 16#32
  let c0_i32_188 : BitVec 32 := 0#32
  let v269 : BitVec 1 := Scalar.cmpi .eq c16_i32_187 c0_i32_188
  let c1_i32_189 : BitVec 32 := 1#32
  let v270 : BitVec 32 := Scalar.select v269 c1_i32_189 c16_i32_187
  let v271 : BitVec 32 := Scalar.remsi v268 v270
  let c0_i32_191 : BitVec 32 := 0#32
  let v273 : BitVec 1 := Scalar.cmpi .slt v271 c0_i32_191
  let c0_i32_192 : BitVec 32 := 0#32
  let v274 : BitVec 1 := Scalar.cmpi .slt v270 c0_i32_192
  let v275 : BitVec 1 := Scalar.xori v273 v274
  let c0_i32_190 : BitVec 32 := 0#32
  let v272 : BitVec 1 := Scalar.cmpi .ne v271 c0_i32_190
  let v276 : BitVec 1 := Scalar.andi v275 v272
  let v277 : BitVec 32 := Scalar.addi v271 v270
  let v278 : BitVec 32 := Scalar.select v276 v277 v271
  let c1_i32_197 : BitVec 32 := 1#32
  let v280 : BitVec 32 := Scalar.muli v278 c1_i32_197
  let v281 : BitVec 32 := Scalar.addi c0_i32_198 v280
  v281.toNat
def k0_dev20 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_202 : BitVec 32 := 3#32
  let v289 : BitVec 32 := Scalar.addi v2 c3_i32_202
  let c16_i32_203 : BitVec 32 := 16#32
  let c0_i32_204 : BitVec 32 := 0#32
  let v290 : BitVec 1 := Scalar.cmpi .eq c16_i32_203 c0_i32_204
  let c1_i32_205 : BitVec 32 := 1#32
  let v291 : BitVec 32 := Scalar.select v290 c1_i32_205 c16_i32_203
  let v292 : BitVec 32 := Scalar.remsi v289 v291
  let c0_i32_207 : BitVec 32 := 0#32
  let v294 : BitVec 1 := Scalar.cmpi .slt v292 c0_i32_207
  let c0_i32_208 : BitVec 32 := 0#32
  let v295 : BitVec 1 := Scalar.cmpi .slt v291 c0_i32_208
  let v296 : BitVec 1 := Scalar.xori v294 v295
  let c0_i32_206 : BitVec 32 := 0#32
  let v293 : BitVec 1 := Scalar.cmpi .ne v292 c0_i32_206
  let v297 : BitVec 1 := Scalar.andi v296 v293
  let v298 : BitVec 32 := Scalar.addi v292 v291
  let v299 : BitVec 32 := Scalar.select v297 v298 v292
  let c1_i32_213 : BitVec 32 := 1#32
  let v301 : BitVec 32 := Scalar.muli v299 c1_i32_213
  let v302 : BitVec 32 := Scalar.addi c0_i32_214 v301
  v302.toNat
def k0_dev21 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_218 : BitVec 32 := 13#32
  let v310 : BitVec 32 := Scalar.addi v2 c13_i32_218
  let c16_i32_219 : BitVec 32 := 16#32
  let c0_i32_220 : BitVec 32 := 0#32
  let v311 : BitVec 1 := Scalar.cmpi .eq c16_i32_219 c0_i32_220
  let c1_i32_221 : BitVec 32 := 1#32
  let v312 : BitVec 32 := Scalar.select v311 c1_i32_221 c16_i32_219
  let v313 : BitVec 32 := Scalar.remsi v310 v312
  let c0_i32_223 : BitVec 32 := 0#32
  let v315 : BitVec 1 := Scalar.cmpi .slt v313 c0_i32_223
  let c0_i32_224 : BitVec 32 := 0#32
  let v316 : BitVec 1 := Scalar.cmpi .slt v312 c0_i32_224
  let v317 : BitVec 1 := Scalar.xori v315 v316
  let c0_i32_222 : BitVec 32 := 0#32
  let v314 : BitVec 1 := Scalar.cmpi .ne v313 c0_i32_222
  let v318 : BitVec 1 := Scalar.andi v317 v314
  let v319 : BitVec 32 := Scalar.addi v313 v312
  let v320 : BitVec 32 := Scalar.select v318 v319 v313
  let c1_i32_229 : BitVec 32 := 1#32
  let v322 : BitVec 32 := Scalar.muli v320 c1_i32_229
  let v323 : BitVec 32 := Scalar.addi c0_i32_230 v322
  v323.toNat
def k0_dev22 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_234 : BitVec 32 := 4#32
  let v331 : BitVec 32 := Scalar.addi v2 c4_i32_234
  let c16_i32_235 : BitVec 32 := 16#32
  let c0_i32_236 : BitVec 32 := 0#32
  let v332 : BitVec 1 := Scalar.cmpi .eq c16_i32_235 c0_i32_236
  let c1_i32_237 : BitVec 32 := 1#32
  let v333 : BitVec 32 := Scalar.select v332 c1_i32_237 c16_i32_235
  let v334 : BitVec 32 := Scalar.remsi v331 v333
  let c0_i32_239 : BitVec 32 := 0#32
  let v336 : BitVec 1 := Scalar.cmpi .slt v334 c0_i32_239
  let c0_i32_240 : BitVec 32 := 0#32
  let v337 : BitVec 1 := Scalar.cmpi .slt v333 c0_i32_240
  let v338 : BitVec 1 := Scalar.xori v336 v337
  let c0_i32_238 : BitVec 32 := 0#32
  let v335 : BitVec 1 := Scalar.cmpi .ne v334 c0_i32_238
  let v339 : BitVec 1 := Scalar.andi v338 v335
  let v340 : BitVec 32 := Scalar.addi v334 v333
  let v341 : BitVec 32 := Scalar.select v339 v340 v334
  let c1_i32_245 : BitVec 32 := 1#32
  let v343 : BitVec 32 := Scalar.muli v341 c1_i32_245
  let v344 : BitVec 32 := Scalar.addi c0_i32_246 v343
  v344.toNat
def k0_dev23 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_250 : BitVec 32 := 12#32
  let v352 : BitVec 32 := Scalar.addi v2 c12_i32_250
  let c16_i32_251 : BitVec 32 := 16#32
  let c0_i32_252 : BitVec 32 := 0#32
  let v353 : BitVec 1 := Scalar.cmpi .eq c16_i32_251 c0_i32_252
  let c1_i32_253 : BitVec 32 := 1#32
  let v354 : BitVec 32 := Scalar.select v353 c1_i32_253 c16_i32_251
  let v355 : BitVec 32 := Scalar.remsi v352 v354
  let c0_i32_255 : BitVec 32 := 0#32
  let v357 : BitVec 1 := Scalar.cmpi .slt v355 c0_i32_255
  let c0_i32_256 : BitVec 32 := 0#32
  let v358 : BitVec 1 := Scalar.cmpi .slt v354 c0_i32_256
  let v359 : BitVec 1 := Scalar.xori v357 v358
  let c0_i32_254 : BitVec 32 := 0#32
  let v356 : BitVec 1 := Scalar.cmpi .ne v355 c0_i32_254
  let v360 : BitVec 1 := Scalar.andi v359 v356
  let v361 : BitVec 32 := Scalar.addi v355 v354
  let v362 : BitVec 32 := Scalar.select v360 v361 v355
  let c1_i32_261 : BitVec 32 := 1#32
  let v364 : BitVec 32 := Scalar.muli v362 c1_i32_261
  let v365 : BitVec 32 := Scalar.addi c0_i32_262 v364
  v365.toNat
def k0_dev24 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_266 : BitVec 32 := 5#32
  let v373 : BitVec 32 := Scalar.addi v2 c5_i32_266
  let c16_i32_267 : BitVec 32 := 16#32
  let c0_i32_268 : BitVec 32 := 0#32
  let v374 : BitVec 1 := Scalar.cmpi .eq c16_i32_267 c0_i32_268
  let c1_i32_269 : BitVec 32 := 1#32
  let v375 : BitVec 32 := Scalar.select v374 c1_i32_269 c16_i32_267
  let v376 : BitVec 32 := Scalar.remsi v373 v375
  let c0_i32_271 : BitVec 32 := 0#32
  let v378 : BitVec 1 := Scalar.cmpi .slt v376 c0_i32_271
  let c0_i32_272 : BitVec 32 := 0#32
  let v379 : BitVec 1 := Scalar.cmpi .slt v375 c0_i32_272
  let v380 : BitVec 1 := Scalar.xori v378 v379
  let c0_i32_270 : BitVec 32 := 0#32
  let v377 : BitVec 1 := Scalar.cmpi .ne v376 c0_i32_270
  let v381 : BitVec 1 := Scalar.andi v380 v377
  let v382 : BitVec 32 := Scalar.addi v376 v375
  let v383 : BitVec 32 := Scalar.select v381 v382 v376
  let c1_i32_277 : BitVec 32 := 1#32
  let v385 : BitVec 32 := Scalar.muli v383 c1_i32_277
  let v386 : BitVec 32 := Scalar.addi c0_i32_278 v385
  v386.toNat
def k0_dev25 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_282 : BitVec 32 := 11#32
  let v394 : BitVec 32 := Scalar.addi v2 c11_i32_282
  let c16_i32_283 : BitVec 32 := 16#32
  let c0_i32_284 : BitVec 32 := 0#32
  let v395 : BitVec 1 := Scalar.cmpi .eq c16_i32_283 c0_i32_284
  let c1_i32_285 : BitVec 32 := 1#32
  let v396 : BitVec 32 := Scalar.select v395 c1_i32_285 c16_i32_283
  let v397 : BitVec 32 := Scalar.remsi v394 v396
  let c0_i32_287 : BitVec 32 := 0#32
  let v399 : BitVec 1 := Scalar.cmpi .slt v397 c0_i32_287
  let c0_i32_288 : BitVec 32 := 0#32
  let v400 : BitVec 1 := Scalar.cmpi .slt v396 c0_i32_288
  let v401 : BitVec 1 := Scalar.xori v399 v400
  let c0_i32_286 : BitVec 32 := 0#32
  let v398 : BitVec 1 := Scalar.cmpi .ne v397 c0_i32_286
  let v402 : BitVec 1 := Scalar.andi v401 v398
  let v403 : BitVec 32 := Scalar.addi v397 v396
  let v404 : BitVec 32 := Scalar.select v402 v403 v397
  let c1_i32_293 : BitVec 32 := 1#32
  let v406 : BitVec 32 := Scalar.muli v404 c1_i32_293
  let v407 : BitVec 32 := Scalar.addi c0_i32_294 v406
  v407.toNat
def k0_dev26 (d0 : Dev nD) : Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_298 : BitVec 32 := 6#32
  let v415 : BitVec 32 := Scalar.addi v2 c6_i32_298
  let c16_i32_299 : BitVec 32 := 16#32
  let c0_i32_300 : BitVec 32 := 0#32
  let v416 : BitVec 1 := Scalar.cmpi .eq c16_i32_299 c0_i32_300
  let c1_i32_301 : BitVec 32 := 1#32
  let v417 : BitVec 32 := Scalar.select v416 c1_i32_301 c16_i32_299
  let v418 : BitVec 32 := Scalar.remsi v415 v417
  let c0_i32_303 : BitVec 32 := 0#32
  let v420 : BitVec 1 := Scalar.cmpi .slt v418 c0_i32_303
  let c0_i32_304 : BitVec 32 := 0#32
  let v421 : BitVec 1 := Scalar.cmpi .slt v417 c0_i32_304
  let v422 : BitVec 1 := Scalar.xori v420 v421
  let c0_i32_302 : BitVec 32 := 0#32
  let v419 : BitVec 1 := Scalar.cmpi .ne v418 c0_i32_302
  let v423 : BitVec 1 := Scalar.andi v422 v419
  let v424 : BitVec 32 := Scalar.addi v418 v417
  let v425 : BitVec 32 := Scalar.select v423 v424 v418
  let c1_i32_309 : BitVec 32 := 1#32
  let v427 : BitVec 32 := Scalar.muli v425 c1_i32_309
  let v428 : BitVec 32 := Scalar.addi c0_i32_310 v427
  v428.toNat
def k0_dev27 (d0 : Dev nD) : Nat :=
  let c0_i32_326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_314 : BitVec 32 := 10#32
  let v436 : BitVec 32 := Scalar.addi v2 c10_i32_314
  let c16_i32_315 : BitVec 32 := 16#32
  let c0_i32_316 : BitVec 32 := 0#32
  let v437 : BitVec 1 := Scalar.cmpi .eq c16_i32_315 c0_i32_316
  let c1_i32_317 : BitVec 32 := 1#32
  let v438 : BitVec 32 := Scalar.select v437 c1_i32_317 c16_i32_315
  let v439 : BitVec 32 := Scalar.remsi v436 v438
  let c0_i32_319 : BitVec 32 := 0#32
  let v441 : BitVec 1 := Scalar.cmpi .slt v439 c0_i32_319
  let c0_i32_320 : BitVec 32 := 0#32
  let v442 : BitVec 1 := Scalar.cmpi .slt v438 c0_i32_320
  let v443 : BitVec 1 := Scalar.xori v441 v442
  let c0_i32_318 : BitVec 32 := 0#32
  let v440 : BitVec 1 := Scalar.cmpi .ne v439 c0_i32_318
  let v444 : BitVec 1 := Scalar.andi v443 v440
  let v445 : BitVec 32 := Scalar.addi v439 v438
  let v446 : BitVec 32 := Scalar.select v444 v445 v439
  let c1_i32_325 : BitVec 32 := 1#32
  let v448 : BitVec 32 := Scalar.muli v446 c1_i32_325
  let v449 : BitVec 32 := Scalar.addi c0_i32_326 v448
  v449.toNat
def k0_dev28 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_330 : BitVec 32 := 7#32
  let v457 : BitVec 32 := Scalar.addi v2 c7_i32_330
  let c16_i32_331 : BitVec 32 := 16#32
  let c0_i32_332 : BitVec 32 := 0#32
  let v458 : BitVec 1 := Scalar.cmpi .eq c16_i32_331 c0_i32_332
  let c1_i32_333 : BitVec 32 := 1#32
  let v459 : BitVec 32 := Scalar.select v458 c1_i32_333 c16_i32_331
  let v460 : BitVec 32 := Scalar.remsi v457 v459
  let c0_i32_335 : BitVec 32 := 0#32
  let v462 : BitVec 1 := Scalar.cmpi .slt v460 c0_i32_335
  let c0_i32_336 : BitVec 32 := 0#32
  let v463 : BitVec 1 := Scalar.cmpi .slt v459 c0_i32_336
  let v464 : BitVec 1 := Scalar.xori v462 v463
  let c0_i32_334 : BitVec 32 := 0#32
  let v461 : BitVec 1 := Scalar.cmpi .ne v460 c0_i32_334
  let v465 : BitVec 1 := Scalar.andi v464 v461
  let v466 : BitVec 32 := Scalar.addi v460 v459
  let v467 : BitVec 32 := Scalar.select v465 v466 v460
  let c1_i32_341 : BitVec 32 := 1#32
  let v469 : BitVec 32 := Scalar.muli v467 c1_i32_341
  let v470 : BitVec 32 := Scalar.addi c0_i32_342 v469
  v470.toNat
def k0_dev29 (d0 : Dev nD) : Nat :=
  let c0_i32_358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_346 : BitVec 32 := 9#32
  let v478 : BitVec 32 := Scalar.addi v2 c9_i32_346
  let c16_i32_347 : BitVec 32 := 16#32
  let c0_i32_348 : BitVec 32 := 0#32
  let v479 : BitVec 1 := Scalar.cmpi .eq c16_i32_347 c0_i32_348
  let c1_i32_349 : BitVec 32 := 1#32
  let v480 : BitVec 32 := Scalar.select v479 c1_i32_349 c16_i32_347
  let v481 : BitVec 32 := Scalar.remsi v478 v480
  let c0_i32_351 : BitVec 32 := 0#32
  let v483 : BitVec 1 := Scalar.cmpi .slt v481 c0_i32_351
  let c0_i32_352 : BitVec 32 := 0#32
  let v484 : BitVec 1 := Scalar.cmpi .slt v480 c0_i32_352
  let v485 : BitVec 1 := Scalar.xori v483 v484
  let c0_i32_350 : BitVec 32 := 0#32
  let v482 : BitVec 1 := Scalar.cmpi .ne v481 c0_i32_350
  let v486 : BitVec 1 := Scalar.andi v485 v482
  let v487 : BitVec 32 := Scalar.addi v481 v480
  let v488 : BitVec 32 := Scalar.select v486 v487 v481
  let c1_i32_357 : BitVec 32 := 1#32
  let v490 : BitVec 32 := Scalar.muli v488 c1_i32_357
  let v491 : BitVec 32 := Scalar.addi c0_i32_358 v490
  v491.toNat
def k0_dev30 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_362 : BitVec 32 := 8#32
  let v499 : BitVec 32 := Scalar.addi v2 c8_i32_362
  let c16_i32_363 : BitVec 32 := 16#32
  let c0_i32_364 : BitVec 32 := 0#32
  let v500 : BitVec 1 := Scalar.cmpi .eq c16_i32_363 c0_i32_364
  let c1_i32_365 : BitVec 32 := 1#32
  let v501 : BitVec 32 := Scalar.select v500 c1_i32_365 c16_i32_363
  let v502 : BitVec 32 := Scalar.remsi v499 v501
  let c0_i32_367 : BitVec 32 := 0#32
  let v504 : BitVec 1 := Scalar.cmpi .slt v502 c0_i32_367
  let c0_i32_368 : BitVec 32 := 0#32
  let v505 : BitVec 1 := Scalar.cmpi .slt v501 c0_i32_368
  let v506 : BitVec 1 := Scalar.xori v504 v505
  let c0_i32_366 : BitVec 32 := 0#32
  let v503 : BitVec 1 := Scalar.cmpi .ne v502 c0_i32_366
  let v507 : BitVec 1 := Scalar.andi v506 v503
  let v508 : BitVec 32 := Scalar.addi v502 v501
  let v509 : BitVec 32 := Scalar.select v507 v508 v502
  let c1_i32_373 : BitVec 32 := 1#32
  let v511 : BitVec 32 := Scalar.muli v509 c1_i32_373
  let v512 : BitVec 32 := Scalar.addi c0_i32_374 v511
  v512.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_378 : BitVec 32 := 32#32
  let v520 : BitVec 32 := Scalar.muli v2 c32_i32_378
  let v521 : Index := Scalar.indexCast v520
  let c0_379 : Index := 0#32
  ![v521.toNat, 0]
def k0_dev31 (d0 : Dev nD) : Nat :=
  let c0_i32_543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_532 : BitVec 32 := 1#32
  let v678 : BitVec 32 := Scalar.addi v2 c1_i32_532
  let c16_i32_533 : BitVec 32 := 16#32
  let c0_i32_534 : BitVec 32 := 0#32
  let v679 : BitVec 1 := Scalar.cmpi .eq c16_i32_533 c0_i32_534
  let c1_i32_535 : BitVec 32 := 1#32
  let v680 : BitVec 32 := Scalar.select v679 c1_i32_535 c16_i32_533
  let v681 : BitVec 32 := Scalar.remsi v678 v680
  let c0_i32_537 : BitVec 32 := 0#32
  let v683 : BitVec 1 := Scalar.cmpi .slt v681 c0_i32_537
  let c0_i32_538 : BitVec 32 := 0#32
  let v684 : BitVec 1 := Scalar.cmpi .slt v680 c0_i32_538
  let v685 : BitVec 1 := Scalar.xori v683 v684
  let c0_i32_536 : BitVec 32 := 0#32
  let v682 : BitVec 1 := Scalar.cmpi .ne v681 c0_i32_536
  let v686 : BitVec 1 := Scalar.andi v685 v682
  let v687 : BitVec 32 := Scalar.addi v681 v680
  let v688 : BitVec 32 := Scalar.select v686 v687 v681
  let c1_i32_542 : BitVec 32 := 1#32
  let v689 : BitVec 32 := Scalar.muli v688 c1_i32_542
  let v690 : BitVec 32 := Scalar.addi c0_i32_543 v689
  v690.toNat
def k0_dev32 (d0 : Dev nD) : Nat :=
  let c0_i32_557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_546 : BitVec 32 := 15#32
  let v697 : BitVec 32 := Scalar.addi v2 c15_i32_546
  let c16_i32_547 : BitVec 32 := 16#32
  let c0_i32_548 : BitVec 32 := 0#32
  let v698 : BitVec 1 := Scalar.cmpi .eq c16_i32_547 c0_i32_548
  let c1_i32_549 : BitVec 32 := 1#32
  let v699 : BitVec 32 := Scalar.select v698 c1_i32_549 c16_i32_547
  let v700 : BitVec 32 := Scalar.remsi v697 v699
  let c0_i32_551 : BitVec 32 := 0#32
  let v702 : BitVec 1 := Scalar.cmpi .slt v700 c0_i32_551
  let c0_i32_552 : BitVec 32 := 0#32
  let v703 : BitVec 1 := Scalar.cmpi .slt v699 c0_i32_552
  let v704 : BitVec 1 := Scalar.xori v702 v703
  let c0_i32_550 : BitVec 32 := 0#32
  let v701 : BitVec 1 := Scalar.cmpi .ne v700 c0_i32_550
  let v705 : BitVec 1 := Scalar.andi v704 v701
  let v706 : BitVec 32 := Scalar.addi v700 v699
  let v707 : BitVec 32 := Scalar.select v705 v706 v700
  let c1_i32_556 : BitVec 32 := 1#32
  let v708 : BitVec 32 := Scalar.muli v707 c1_i32_556
  let v709 : BitVec 32 := Scalar.addi c0_i32_557 v708
  v709.toNat
def k0_dev33 (d0 : Dev nD) : Nat :=
  let c0_i32_571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_560 : BitVec 32 := 2#32
  let v716 : BitVec 32 := Scalar.addi v2 c2_i32_560
  let c16_i32_561 : BitVec 32 := 16#32
  let c0_i32_562 : BitVec 32 := 0#32
  let v717 : BitVec 1 := Scalar.cmpi .eq c16_i32_561 c0_i32_562
  let c1_i32_563 : BitVec 32 := 1#32
  let v718 : BitVec 32 := Scalar.select v717 c1_i32_563 c16_i32_561
  let v719 : BitVec 32 := Scalar.remsi v716 v718
  let c0_i32_565 : BitVec 32 := 0#32
  let v721 : BitVec 1 := Scalar.cmpi .slt v719 c0_i32_565
  let c0_i32_566 : BitVec 32 := 0#32
  let v722 : BitVec 1 := Scalar.cmpi .slt v718 c0_i32_566
  let v723 : BitVec 1 := Scalar.xori v721 v722
  let c0_i32_564 : BitVec 32 := 0#32
  let v720 : BitVec 1 := Scalar.cmpi .ne v719 c0_i32_564
  let v724 : BitVec 1 := Scalar.andi v723 v720
  let v725 : BitVec 32 := Scalar.addi v719 v718
  let v726 : BitVec 32 := Scalar.select v724 v725 v719
  let c1_i32_570 : BitVec 32 := 1#32
  let v727 : BitVec 32 := Scalar.muli v726 c1_i32_570
  let v728 : BitVec 32 := Scalar.addi c0_i32_571 v727
  v728.toNat
def k0_dev34 (d0 : Dev nD) : Nat :=
  let c0_i32_585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_574 : BitVec 32 := 14#32
  let v735 : BitVec 32 := Scalar.addi v2 c14_i32_574
  let c16_i32_575 : BitVec 32 := 16#32
  let c0_i32_576 : BitVec 32 := 0#32
  let v736 : BitVec 1 := Scalar.cmpi .eq c16_i32_575 c0_i32_576
  let c1_i32_577 : BitVec 32 := 1#32
  let v737 : BitVec 32 := Scalar.select v736 c1_i32_577 c16_i32_575
  let v738 : BitVec 32 := Scalar.remsi v735 v737
  let c0_i32_579 : BitVec 32 := 0#32
  let v740 : BitVec 1 := Scalar.cmpi .slt v738 c0_i32_579
  let c0_i32_580 : BitVec 32 := 0#32
  let v741 : BitVec 1 := Scalar.cmpi .slt v737 c0_i32_580
  let v742 : BitVec 1 := Scalar.xori v740 v741
  let c0_i32_578 : BitVec 32 := 0#32
  let v739 : BitVec 1 := Scalar.cmpi .ne v738 c0_i32_578
  let v743 : BitVec 1 := Scalar.andi v742 v739
  let v744 : BitVec 32 := Scalar.addi v738 v737
  let v745 : BitVec 32 := Scalar.select v743 v744 v738
  let c1_i32_584 : BitVec 32 := 1#32
  let v746 : BitVec 32 := Scalar.muli v745 c1_i32_584
  let v747 : BitVec 32 := Scalar.addi c0_i32_585 v746
  v747.toNat
def k0_dev35 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_588 : BitVec 32 := 3#32
  let v754 : BitVec 32 := Scalar.addi v2 c3_i32_588
  let c16_i32_589 : BitVec 32 := 16#32
  let c0_i32_590 : BitVec 32 := 0#32
  let v755 : BitVec 1 := Scalar.cmpi .eq c16_i32_589 c0_i32_590
  let c1_i32_591 : BitVec 32 := 1#32
  let v756 : BitVec 32 := Scalar.select v755 c1_i32_591 c16_i32_589
  let v757 : BitVec 32 := Scalar.remsi v754 v756
  let c0_i32_593 : BitVec 32 := 0#32
  let v759 : BitVec 1 := Scalar.cmpi .slt v757 c0_i32_593
  let c0_i32_594 : BitVec 32 := 0#32
  let v760 : BitVec 1 := Scalar.cmpi .slt v756 c0_i32_594
  let v761 : BitVec 1 := Scalar.xori v759 v760
  let c0_i32_592 : BitVec 32 := 0#32
  let v758 : BitVec 1 := Scalar.cmpi .ne v757 c0_i32_592
  let v762 : BitVec 1 := Scalar.andi v761 v758
  let v763 : BitVec 32 := Scalar.addi v757 v756
  let v764 : BitVec 32 := Scalar.select v762 v763 v757
  let c1_i32_598 : BitVec 32 := 1#32
  let v765 : BitVec 32 := Scalar.muli v764 c1_i32_598
  let v766 : BitVec 32 := Scalar.addi c0_i32_599 v765
  v766.toNat
def k0_dev36 (d0 : Dev nD) : Nat :=
  let c0_i32_613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_602 : BitVec 32 := 13#32
  let v773 : BitVec 32 := Scalar.addi v2 c13_i32_602
  let c16_i32_603 : BitVec 32 := 16#32
  let c0_i32_604 : BitVec 32 := 0#32
  let v774 : BitVec 1 := Scalar.cmpi .eq c16_i32_603 c0_i32_604
  let c1_i32_605 : BitVec 32 := 1#32
  let v775 : BitVec 32 := Scalar.select v774 c1_i32_605 c16_i32_603
  let v776 : BitVec 32 := Scalar.remsi v773 v775
  let c0_i32_607 : BitVec 32 := 0#32
  let v778 : BitVec 1 := Scalar.cmpi .slt v776 c0_i32_607
  let c0_i32_608 : BitVec 32 := 0#32
  let v779 : BitVec 1 := Scalar.cmpi .slt v775 c0_i32_608
  let v780 : BitVec 1 := Scalar.xori v778 v779
  let c0_i32_606 : BitVec 32 := 0#32
  let v777 : BitVec 1 := Scalar.cmpi .ne v776 c0_i32_606
  let v781 : BitVec 1 := Scalar.andi v780 v777
  let v782 : BitVec 32 := Scalar.addi v776 v775
  let v783 : BitVec 32 := Scalar.select v781 v782 v776
  let c1_i32_612 : BitVec 32 := 1#32
  let v784 : BitVec 32 := Scalar.muli v783 c1_i32_612
  let v785 : BitVec 32 := Scalar.addi c0_i32_613 v784
  v785.toNat
def k0_dev37 (d0 : Dev nD) : Nat :=
  let c0_i32_627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_616 : BitVec 32 := 4#32
  let v792 : BitVec 32 := Scalar.addi v2 c4_i32_616
  let c16_i32_617 : BitVec 32 := 16#32
  let c0_i32_618 : BitVec 32 := 0#32
  let v793 : BitVec 1 := Scalar.cmpi .eq c16_i32_617 c0_i32_618
  let c1_i32_619 : BitVec 32 := 1#32
  let v794 : BitVec 32 := Scalar.select v793 c1_i32_619 c16_i32_617
  let v795 : BitVec 32 := Scalar.remsi v792 v794
  let c0_i32_621 : BitVec 32 := 0#32
  let v797 : BitVec 1 := Scalar.cmpi .slt v795 c0_i32_621
  let c0_i32_622 : BitVec 32 := 0#32
  let v798 : BitVec 1 := Scalar.cmpi .slt v794 c0_i32_622
  let v799 : BitVec 1 := Scalar.xori v797 v798
  let c0_i32_620 : BitVec 32 := 0#32
  let v796 : BitVec 1 := Scalar.cmpi .ne v795 c0_i32_620
  let v800 : BitVec 1 := Scalar.andi v799 v796
  let v801 : BitVec 32 := Scalar.addi v795 v794
  let v802 : BitVec 32 := Scalar.select v800 v801 v795
  let c1_i32_626 : BitVec 32 := 1#32
  let v803 : BitVec 32 := Scalar.muli v802 c1_i32_626
  let v804 : BitVec 32 := Scalar.addi c0_i32_627 v803
  v804.toNat
def k0_dev38 (d0 : Dev nD) : Nat :=
  let c0_i32_641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_630 : BitVec 32 := 12#32
  let v811 : BitVec 32 := Scalar.addi v2 c12_i32_630
  let c16_i32_631 : BitVec 32 := 16#32
  let c0_i32_632 : BitVec 32 := 0#32
  let v812 : BitVec 1 := Scalar.cmpi .eq c16_i32_631 c0_i32_632
  let c1_i32_633 : BitVec 32 := 1#32
  let v813 : BitVec 32 := Scalar.select v812 c1_i32_633 c16_i32_631
  let v814 : BitVec 32 := Scalar.remsi v811 v813
  let c0_i32_635 : BitVec 32 := 0#32
  let v816 : BitVec 1 := Scalar.cmpi .slt v814 c0_i32_635
  let c0_i32_636 : BitVec 32 := 0#32
  let v817 : BitVec 1 := Scalar.cmpi .slt v813 c0_i32_636
  let v818 : BitVec 1 := Scalar.xori v816 v817
  let c0_i32_634 : BitVec 32 := 0#32
  let v815 : BitVec 1 := Scalar.cmpi .ne v814 c0_i32_634
  let v819 : BitVec 1 := Scalar.andi v818 v815
  let v820 : BitVec 32 := Scalar.addi v814 v813
  let v821 : BitVec 32 := Scalar.select v819 v820 v814
  let c1_i32_640 : BitVec 32 := 1#32
  let v822 : BitVec 32 := Scalar.muli v821 c1_i32_640
  let v823 : BitVec 32 := Scalar.addi c0_i32_641 v822
  v823.toNat
def k0_dev39 (d0 : Dev nD) : Nat :=
  let c0_i32_655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_644 : BitVec 32 := 5#32
  let v830 : BitVec 32 := Scalar.addi v2 c5_i32_644
  let c16_i32_645 : BitVec 32 := 16#32
  let c0_i32_646 : BitVec 32 := 0#32
  let v831 : BitVec 1 := Scalar.cmpi .eq c16_i32_645 c0_i32_646
  let c1_i32_647 : BitVec 32 := 1#32
  let v832 : BitVec 32 := Scalar.select v831 c1_i32_647 c16_i32_645
  let v833 : BitVec 32 := Scalar.remsi v830 v832
  let c0_i32_649 : BitVec 32 := 0#32
  let v835 : BitVec 1 := Scalar.cmpi .slt v833 c0_i32_649
  let c0_i32_650 : BitVec 32 := 0#32
  let v836 : BitVec 1 := Scalar.cmpi .slt v832 c0_i32_650
  let v837 : BitVec 1 := Scalar.xori v835 v836
  let c0_i32_648 : BitVec 32 := 0#32
  let v834 : BitVec 1 := Scalar.cmpi .ne v833 c0_i32_648
  let v838 : BitVec 1 := Scalar.andi v837 v834
  let v839 : BitVec 32 := Scalar.addi v833 v832
  let v840 : BitVec 32 := Scalar.select v838 v839 v833
  let c1_i32_654 : BitVec 32 := 1#32
  let v841 : BitVec 32 := Scalar.muli v840 c1_i32_654
  let v842 : BitVec 32 := Scalar.addi c0_i32_655 v841
  v842.toNat
def k0_dev40 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_658 : BitVec 32 := 11#32
  let v849 : BitVec 32 := Scalar.addi v2 c11_i32_658
  let c16_i32_659 : BitVec 32 := 16#32
  let c0_i32_660 : BitVec 32 := 0#32
  let v850 : BitVec 1 := Scalar.cmpi .eq c16_i32_659 c0_i32_660
  let c1_i32_661 : BitVec 32 := 1#32
  let v851 : BitVec 32 := Scalar.select v850 c1_i32_661 c16_i32_659
  let v852 : BitVec 32 := Scalar.remsi v849 v851
  let c0_i32_663 : BitVec 32 := 0#32
  let v854 : BitVec 1 := Scalar.cmpi .slt v852 c0_i32_663
  let c0_i32_664 : BitVec 32 := 0#32
  let v855 : BitVec 1 := Scalar.cmpi .slt v851 c0_i32_664
  let v856 : BitVec 1 := Scalar.xori v854 v855
  let c0_i32_662 : BitVec 32 := 0#32
  let v853 : BitVec 1 := Scalar.cmpi .ne v852 c0_i32_662
  let v857 : BitVec 1 := Scalar.andi v856 v853
  let v858 : BitVec 32 := Scalar.addi v852 v851
  let v859 : BitVec 32 := Scalar.select v857 v858 v852
  let c1_i32_668 : BitVec 32 := 1#32
  let v860 : BitVec 32 := Scalar.muli v859 c1_i32_668
  let v861 : BitVec 32 := Scalar.addi c0_i32_669 v860
  v861.toNat
def k0_dev41 (d0 : Dev nD) : Nat :=
  let c0_i32_683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_672 : BitVec 32 := 6#32
  let v868 : BitVec 32 := Scalar.addi v2 c6_i32_672
  let c16_i32_673 : BitVec 32 := 16#32
  let c0_i32_674 : BitVec 32 := 0#32
  let v869 : BitVec 1 := Scalar.cmpi .eq c16_i32_673 c0_i32_674
  let c1_i32_675 : BitVec 32 := 1#32
  let v870 : BitVec 32 := Scalar.select v869 c1_i32_675 c16_i32_673
  let v871 : BitVec 32 := Scalar.remsi v868 v870
  let c0_i32_677 : BitVec 32 := 0#32
  let v873 : BitVec 1 := Scalar.cmpi .slt v871 c0_i32_677
  let c0_i32_678 : BitVec 32 := 0#32
  let v874 : BitVec 1 := Scalar.cmpi .slt v870 c0_i32_678
  let v875 : BitVec 1 := Scalar.xori v873 v874
  let c0_i32_676 : BitVec 32 := 0#32
  let v872 : BitVec 1 := Scalar.cmpi .ne v871 c0_i32_676
  let v876 : BitVec 1 := Scalar.andi v875 v872
  let v877 : BitVec 32 := Scalar.addi v871 v870
  let v878 : BitVec 32 := Scalar.select v876 v877 v871
  let c1_i32_682 : BitVec 32 := 1#32
  let v879 : BitVec 32 := Scalar.muli v878 c1_i32_682
  let v880 : BitVec 32 := Scalar.addi c0_i32_683 v879
  v880.toNat
def k0_dev42 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_686 : BitVec 32 := 10#32
  let v887 : BitVec 32 := Scalar.addi v2 c10_i32_686
  let c16_i32_687 : BitVec 32 := 16#32
  let c0_i32_688 : BitVec 32 := 0#32
  let v888 : BitVec 1 := Scalar.cmpi .eq c16_i32_687 c0_i32_688
  let c1_i32_689 : BitVec 32 := 1#32
  let v889 : BitVec 32 := Scalar.select v888 c1_i32_689 c16_i32_687
  let v890 : BitVec 32 := Scalar.remsi v887 v889
  let c0_i32_691 : BitVec 32 := 0#32
  let v892 : BitVec 1 := Scalar.cmpi .slt v890 c0_i32_691
  let c0_i32_692 : BitVec 32 := 0#32
  let v893 : BitVec 1 := Scalar.cmpi .slt v889 c0_i32_692
  let v894 : BitVec 1 := Scalar.xori v892 v893
  let c0_i32_690 : BitVec 32 := 0#32
  let v891 : BitVec 1 := Scalar.cmpi .ne v890 c0_i32_690
  let v895 : BitVec 1 := Scalar.andi v894 v891
  let v896 : BitVec 32 := Scalar.addi v890 v889
  let v897 : BitVec 32 := Scalar.select v895 v896 v890
  let c1_i32_696 : BitVec 32 := 1#32
  let v898 : BitVec 32 := Scalar.muli v897 c1_i32_696
  let v899 : BitVec 32 := Scalar.addi c0_i32_697 v898
  v899.toNat
def k0_dev43 (d0 : Dev nD) : Nat :=
  let c0_i32_711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_700 : BitVec 32 := 7#32
  let v906 : BitVec 32 := Scalar.addi v2 c7_i32_700
  let c16_i32_701 : BitVec 32 := 16#32
  let c0_i32_702 : BitVec 32 := 0#32
  let v907 : BitVec 1 := Scalar.cmpi .eq c16_i32_701 c0_i32_702
  let c1_i32_703 : BitVec 32 := 1#32
  let v908 : BitVec 32 := Scalar.select v907 c1_i32_703 c16_i32_701
  let v909 : BitVec 32 := Scalar.remsi v906 v908
  let c0_i32_705 : BitVec 32 := 0#32
  let v911 : BitVec 1 := Scalar.cmpi .slt v909 c0_i32_705
  let c0_i32_706 : BitVec 32 := 0#32
  let v912 : BitVec 1 := Scalar.cmpi .slt v908 c0_i32_706
  let v913 : BitVec 1 := Scalar.xori v911 v912
  let c0_i32_704 : BitVec 32 := 0#32
  let v910 : BitVec 1 := Scalar.cmpi .ne v909 c0_i32_704
  let v914 : BitVec 1 := Scalar.andi v913 v910
  let v915 : BitVec 32 := Scalar.addi v909 v908
  let v916 : BitVec 32 := Scalar.select v914 v915 v909
  let c1_i32_710 : BitVec 32 := 1#32
  let v917 : BitVec 32 := Scalar.muli v916 c1_i32_710
  let v918 : BitVec 32 := Scalar.addi c0_i32_711 v917
  v918.toNat
def k0_dev44 (d0 : Dev nD) : Nat :=
  let c0_i32_725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_714 : BitVec 32 := 9#32
  let v925 : BitVec 32 := Scalar.addi v2 c9_i32_714
  let c16_i32_715 : BitVec 32 := 16#32
  let c0_i32_716 : BitVec 32 := 0#32
  let v926 : BitVec 1 := Scalar.cmpi .eq c16_i32_715 c0_i32_716
  let c1_i32_717 : BitVec 32 := 1#32
  let v927 : BitVec 32 := Scalar.select v926 c1_i32_717 c16_i32_715
  let v928 : BitVec 32 := Scalar.remsi v925 v927
  let c0_i32_719 : BitVec 32 := 0#32
  let v930 : BitVec 1 := Scalar.cmpi .slt v928 c0_i32_719
  let c0_i32_720 : BitVec 32 := 0#32
  let v931 : BitVec 1 := Scalar.cmpi .slt v927 c0_i32_720
  let v932 : BitVec 1 := Scalar.xori v930 v931
  let c0_i32_718 : BitVec 32 := 0#32
  let v929 : BitVec 1 := Scalar.cmpi .ne v928 c0_i32_718
  let v933 : BitVec 1 := Scalar.andi v932 v929
  let v934 : BitVec 32 := Scalar.addi v928 v927
  let v935 : BitVec 32 := Scalar.select v933 v934 v928
  let c1_i32_724 : BitVec 32 := 1#32
  let v936 : BitVec 32 := Scalar.muli v935 c1_i32_724
  let v937 : BitVec 32 := Scalar.addi c0_i32_725 v936
  v937.toNat
def k0_dev45 (d0 : Dev nD) : Nat :=
  let c0_i32_739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_728 : BitVec 32 := 8#32
  let v944 : BitVec 32 := Scalar.addi v2 c8_i32_728
  let c16_i32_729 : BitVec 32 := 16#32
  let c0_i32_730 : BitVec 32 := 0#32
  let v945 : BitVec 1 := Scalar.cmpi .eq c16_i32_729 c0_i32_730
  let c1_i32_731 : BitVec 32 := 1#32
  let v946 : BitVec 32 := Scalar.select v945 c1_i32_731 c16_i32_729
  let v947 : BitVec 32 := Scalar.remsi v944 v946
  let c0_i32_733 : BitVec 32 := 0#32
  let v949 : BitVec 1 := Scalar.cmpi .slt v947 c0_i32_733
  let c0_i32_734 : BitVec 32 := 0#32
  let v950 : BitVec 1 := Scalar.cmpi .slt v946 c0_i32_734
  let v951 : BitVec 1 := Scalar.xori v949 v950
  let c0_i32_732 : BitVec 32 := 0#32
  let v948 : BitVec 1 := Scalar.cmpi .ne v947 c0_i32_732
  let v952 : BitVec 1 := Scalar.andi v951 v948
  let v953 : BitVec 32 := Scalar.addi v947 v946
  let v954 : BitVec 32 := Scalar.select v952 v953 v947
  let c1_i32_738 : BitVec 32 := 1#32
  let v955 : BitVec 32 := Scalar.muli v954 c1_i32_738
  let v956 : BitVec 32 := Scalar.addi c0_i32_739 v955
  v956.toNat
def k0_off3 (d0 : Dev nD) (c15_i32_751 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v973 : BitVec 32 := Scalar.addi v2 c15_i32_751
  let c16_i32_752 : BitVec 32 := 16#32
  let c0_i32_753 : BitVec 32 := 0#32
  let v974 : BitVec 1 := Scalar.cmpi .eq c16_i32_752 c0_i32_753
  let c1_i32_754 : BitVec 32 := 1#32
  let v975 : BitVec 32 := Scalar.select v974 c1_i32_754 c16_i32_752
  let v976 : BitVec 32 := Scalar.remsi v973 v975
  let c0_i32_756 : BitVec 32 := 0#32
  let v978 : BitVec 1 := Scalar.cmpi .slt v976 c0_i32_756
  let c0_i32_757 : BitVec 32 := 0#32
  let v979 : BitVec 1 := Scalar.cmpi .slt v975 c0_i32_757
  let v980 : BitVec 1 := Scalar.xori v978 v979
  let c0_i32_755 : BitVec 32 := 0#32
  let v977 : BitVec 1 := Scalar.cmpi .ne v976 c0_i32_755
  let v981 : BitVec 1 := Scalar.andi v980 v977
  let v982 : BitVec 32 := Scalar.addi v976 v975
  let v983 : BitVec 32 := Scalar.select v981 v982 v976
  let c32_i32_758 : BitVec 32 := 32#32
  let v984 : BitVec 32 := Scalar.muli v983 c32_i32_758
  let v988 : Index := Scalar.indexCast v984
  let c0_762 : Index := 0#32
  ![v988.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  hamt_15 : (15#32 : BitVec 32).msb = false
  inb_S16_S1_15 : ∀ a, (![15] : Fin 1 → Nat) a + S1.size a ≤ S16.size a
  squeezes_S1_S_ : S1.Squeezes S_
  inb_S16x32x512_S1x32x512_15_0_0 : ∀ a, (![15, 0, 0] : Fin 3 → Nat) a + S1x32x512.size a ≤ S16x32x512.size a
  squeezes_S1x32x512_S32x512 : S1x32x512.Squeezes S32x512
  wordsbf16_S16x32x512_S1x32x512_15_0_0 : (Rect.unit (s := S16x32x512) ![15, 0, 0] S1x32x512.size inb_S16x32x512_S1x32x512_15_0_0).WholeWords (EltTy.packing .bf16)
  inb_S16_S1_1 : ∀ a, (![1] : Fin 1 → Nat) a + S1.size a ≤ S16.size a
  inb_S16x32x512_S1x32x512_1_0_0 : ∀ a, (![1, 0, 0] : Fin 3 → Nat) a + S1x32x512.size a ≤ S16x32x512.size a
  wordsbf16_S16x32x512_S1x32x512_1_0_0 : (Rect.unit (s := S16x32x512) ![1, 0, 0] S1x32x512.size inb_S16x32x512_S1x32x512_1_0_0).WholeWords (EltTy.packing .bf16)
  inb_S16_S1_14 : ∀ a, (![14] : Fin 1 → Nat) a + S1.size a ≤ S16.size a
  inb_S16x32x512_S1x32x512_14_0_0 : ∀ a, (![14, 0, 0] : Fin 3 → Nat) a + S1x32x512.size a ≤ S16x32x512.size a
  wordsbf16_S16x32x512_S1x32x512_14_0_0 : (Rect.unit (s := S16x32x512) ![14, 0, 0] S1x32x512.size inb_S16x32x512_S1x32x512_14_0_0).WholeWords (EltTy.packing .bf16)
  inb_S16_S1_2 : ∀ a, (![2] : Fin 1 → Nat) a + S1.size a ≤ S16.size a
  inb_S16x32x512_S1x32x512_2_0_0 : ∀ a, (![2, 0, 0] : Fin 3 → Nat) a + S1x32x512.size a ≤ S16x32x512.size a
  wordsbf16_S16x32x512_S1x32x512_2_0_0 : (Rect.unit (s := S16x32x512) ![2, 0, 0] S1x32x512.size inb_S16x32x512_S1x32x512_2_0_0).WholeWords (EltTy.packing .bf16)
  inb_S16_S1_13 : ∀ a, (![13] : Fin 1 → Nat) a + S1.size a ≤ S16.size a
  inb_S16x32x512_S1x32x512_13_0_0 : ∀ a, (![13, 0, 0] : Fin 3 → Nat) a + S1x32x512.size a ≤ S16x32x512.size a
  wordsbf16_S16x32x512_S1x32x512_13_0_0 : (Rect.unit (s := S16x32x512) ![13, 0, 0] S1x32x512.size inb_S16x32x512_S1x32x512_13_0_0).WholeWords (EltTy.packing .bf16)
  inb_S16_S1_3 : ∀ a, (![3] : Fin 1 → Nat) a + S1.size a ≤ S16.size a
  inb_S16x32x512_S1x32x512_3_0_0 : ∀ a, (![3, 0, 0] : Fin 3 → Nat) a + S1x32x512.size a ≤ S16x32x512.size a
  wordsbf16_S16x32x512_S1x32x512_3_0_0 : (Rect.unit (s := S16x32x512) ![3, 0, 0] S1x32x512.size inb_S16x32x512_S1x32x512_3_0_0).WholeWords (EltTy.packing .bf16)
  inb_S16_S1_12 : ∀ a, (![12] : Fin 1 → Nat) a + S1.size a ≤ S16.size a
  inb_S16x32x512_S1x32x512_12_0_0 : ∀ a, (![12, 0, 0] : Fin 3 → Nat) a + S1x32x512.size a ≤ S16x32x512.size a
  wordsbf16_S16x32x512_S1x32x512_12_0_0 : (Rect.unit (s := S16x32x512) ![12, 0, 0] S1x32x512.size inb_S16x32x512_S1x32x512_12_0_0).WholeWords (EltTy.packing .bf16)
  inb_S16_S1_4 : ∀ a, (![4] : Fin 1 → Nat) a + S1.size a ≤ S16.size a
  inb_S16x32x512_S1x32x512_4_0_0 : ∀ a, (![4, 0, 0] : Fin 3 → Nat) a + S1x32x512.size a ≤ S16x32x512.size a
  wordsbf16_S16x32x512_S1x32x512_4_0_0 : (Rect.unit (s := S16x32x512) ![4, 0, 0] S1x32x512.size inb_S16x32x512_S1x32x512_4_0_0).WholeWords (EltTy.packing .bf16)
  inb_S16_S1_11 : ∀ a, (![11] : Fin 1 → Nat) a + S1.size a ≤ S16.size a
  inb_S16x32x512_S1x32x512_11_0_0 : ∀ a, (![11, 0, 0] : Fin 3 → Nat) a + S1x32x512.size a ≤ S16x32x512.size a
  wordsbf16_S16x32x512_S1x32x512_11_0_0 : (Rect.unit (s := S16x32x512) ![11, 0, 0] S1x32x512.size inb_S16x32x512_S1x32x512_11_0_0).WholeWords (EltTy.packing .bf16)
  inb_S16_S1_5 : ∀ a, (![5] : Fin 1 → Nat) a + S1.size a ≤ S16.size a
  inb_S16x32x512_S1x32x512_5_0_0 : ∀ a, (![5, 0, 0] : Fin 3 → Nat) a + S1x32x512.size a ≤ S16x32x512.size a
  wordsbf16_S16x32x512_S1x32x512_5_0_0 : (Rect.unit (s := S16x32x512) ![5, 0, 0] S1x32x512.size inb_S16x32x512_S1x32x512_5_0_0).WholeWords (EltTy.packing .bf16)
  inb_S16_S1_10 : ∀ a, (![10] : Fin 1 → Nat) a + S1.size a ≤ S16.size a
  inb_S16x32x512_S1x32x512_10_0_0 : ∀ a, (![10, 0, 0] : Fin 3 → Nat) a + S1x32x512.size a ≤ S16x32x512.size a
  wordsbf16_S16x32x512_S1x32x512_10_0_0 : (Rect.unit (s := S16x32x512) ![10, 0, 0] S1x32x512.size inb_S16x32x512_S1x32x512_10_0_0).WholeWords (EltTy.packing .bf16)
  inb_S16_S1_6 : ∀ a, (![6] : Fin 1 → Nat) a + S1.size a ≤ S16.size a
  inb_S16x32x512_S1x32x512_6_0_0 : ∀ a, (![6, 0, 0] : Fin 3 → Nat) a + S1x32x512.size a ≤ S16x32x512.size a
  wordsbf16_S16x32x512_S1x32x512_6_0_0 : (Rect.unit (s := S16x32x512) ![6, 0, 0] S1x32x512.size inb_S16x32x512_S1x32x512_6_0_0).WholeWords (EltTy.packing .bf16)
  inb_S16_S1_9 : ∀ a, (![9] : Fin 1 → Nat) a + S1.size a ≤ S16.size a
  inb_S16x32x512_S1x32x512_9_0_0 : ∀ a, (![9, 0, 0] : Fin 3 → Nat) a + S1x32x512.size a ≤ S16x32x512.size a
  wordsbf16_S16x32x512_S1x32x512_9_0_0 : (Rect.unit (s := S16x32x512) ![9, 0, 0] S1x32x512.size inb_S16x32x512_S1x32x512_9_0_0).WholeWords (EltTy.packing .bf16)
  inb_S16_S1_7 : ∀ a, (![7] : Fin 1 → Nat) a + S1.size a ≤ S16.size a
  inb_S16x32x512_S1x32x512_7_0_0 : ∀ a, (![7, 0, 0] : Fin 3 → Nat) a + S1x32x512.size a ≤ S16x32x512.size a
  wordsbf16_S16x32x512_S1x32x512_7_0_0 : (Rect.unit (s := S16x32x512) ![7, 0, 0] S1x32x512.size inb_S16x32x512_S1x32x512_7_0_0).WholeWords (EltTy.packing .bf16)
  inb_S16_S1_8 : ∀ a, (![8] : Fin 1 → Nat) a + S1.size a ≤ S16.size a
  inb_S16x32x512_S1x32x512_8_0_0 : ∀ a, (![8, 0, 0] : Fin 3 → Nat) a + S1x32x512.size a ≤ S16x32x512.size a
  wordsbf16_S16x32x512_S1x32x512_8_0_0 : (Rect.unit (s := S16x32x512) ![8, 0, 0] S1x32x512.size inb_S16x32x512_S1x32x512_8_0_0).WholeWords (EltTy.packing .bf16)
  h_S32x512 : 0 < S32x512.numel
  shapeCasts_S32x512_S32x512 : S32x512.ShapeCasts S32x512
  h_S1x32x512 : 0 < S1x32x512.numel
  shapeCasts_S1x32x512_S32x512 : S1x32x512.ShapeCasts S32x512
  inb_S32x512_S32x512_0_0 : ∀ a, (![0, 0] : Fin 2 → Nat) a + S32x512.size a ≤ S32x512.size a
  packedbf16_S32x512_S32x512_0_0 : (Rect.unit (s := S32x512) ![0, 0] S32x512.size inb_S32x512_S32x512_0_0).PackedRows (EltTy.packing .bf16)
  hcc0_scratch4 : 2 + S16.numel ≤ 66
  hcc0_scratch5 : 18 + S16.numel ≤ 66
  hcc0_scratch6 : 34 + S16.numel ≤ 66
  hcc0_scratch7 : 50 + S16.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ (r : Fin 15), ∀ a, (k0_off1 d0 (BitVec.ofNat 32 (1 + r.val))) a + S32x512.size a ≤ S512x512.size a
  k0_off1_wordsbf16 : ∀ d0 : Dev nD, ∀ (r : Fin 15), (Rect.unit (s := S512x512) (k0_off1 d0 (BitVec.ofNat 32 (1 + r.val))) S32x512.size (k0_off1_inb d0 r)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off2_inb : ∀ d0 : Dev nD, ∀ a, (k0_off2 d0) a + S32x512.size a ≤ S512x512.size a
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_off3_inb : ∀ d0 : Dev nD, ∀ (r : Fin 15), ∀ a, (k0_off3 d0 (BitVec.ofNat 32 (1 + r.val))) a + S32x512.size a ≤ S512x512.size a
  hstage0_0 : ∀ j, (stage0_0 j).IsWhole
  hstage0_1 : ∀ j, (stage0_1 j).IsWhole

variable [Facts₀]

abbrev cc0_scratch4 : DmaSems sig S16 := SemArray.consecutive 2 S16 hcc0_scratch4
abbrev cc0_scratch5 : DmaSems sig S16 := SemArray.consecutive 18 S16 hcc0_scratch5
abbrev cc0_scratch6 : DmaSems sig S16 := SemArray.consecutive 34 S16 hcc0_scratch6
abbrev cc0_scratch7 : DmaSems sig S16 := SemArray.consecutive 50 S16 hcc0_scratch7

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x512 : Shape := ⟨2, ![8192, 512]⟩
abbrev S16x512x512 : Shape := ⟨3, ![16, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S16x512x512, .f32⟩
  | .hbm, ⟨2, _⟩ => ⟨S_, .f32⟩
  | .hbm, ⟨3, _⟩ => ⟨S512x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S8192x512_S16x512x512 : S8192x512.ShapeCasts S16x512x512
  reducesTo_S16x512x512_S512x512_d0 : S16x512x512.ReducesTo [0] S512x512
  h_S_ : 0 < S_.numel

variable [Facts₀]

class Facts : Prop extends Facts₀ where

variable [Facts]
-- ==== Proof.Proto.lean ====
import proofs.«901016_g7700000000001017_dist_rs_then_ag_i_m512_n512_v7x_i16_bf16_1_alg».proof.Defs
import proofs.«901016_g7700000000001017_dist_rs_then_ag_i_m512_n512_v7x_i16_bf16_1_alg».proof.Proof.Gen.KernelIdeal
import proofs.«901016_g7700000000001017_dist_rs_then_ag_i_m512_n512_v7x_i16_bf16_1_alg».proof.Proof.Gen.KernelIdeal.Skeleton
import proofs.«901016_g7700000000001017_dist_rs_then_ag_i_m512_n512_v7x_i16_bf16_1_alg».proof.Proof.Gen.KernelIdeal.Launch
import proofs.«901016_g7700000000001017_dist_rs_then_ag_i_m512_n512_v7x_i16_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

def peer (c : Dev nD) (k : Fin 16) : Dev nD := ⟨(c.val + k.val) % 16, Nat.mod_lt _ (by decide)⟩

def opp (k : Fin 16) : Fin 16 := ⟨(16 - k.val) % 16, Nat.mod_lt _ (by decide)⟩

theorem peer_opp (c : Dev nD) (k : Fin 16) : peer (peer c k) (opp k) = c := by revert c k; decide
theorem opp_opp (k : Fin 16) : opp (opp k) = k := by revert k; decide
theorem peer_zero (c : Dev nD) : peer c 0 = c := by revert c; decide
theorem peer_inj (c : Dev nD) {j k : Fin 16} (h : peer c j = peer c k) : j = k := by revert c j k; decide
theorem opp_ne_zero {k : Fin 16} (hk : k ≠ 0) : opp k ≠ 0 := by revert k; decide
theorem opp_1 : opp 1 = 15 := rfl
theorem opp_2 : opp 2 = 14 := rfl
theorem opp_3 : opp 3 = 13 := rfl
theorem opp_4 : opp 4 = 12 := rfl
theorem opp_5 : opp 5 = 11 := rfl
theorem opp_6 : opp 6 = 10 := rfl
theorem opp_7 : opp 7 = 9 := rfl
theorem opp_8 : opp 8 = 8 := rfl
theorem opp_9 : opp 9 = 7 := rfl
theorem opp_10 : opp 10 = 6 := rfl
theorem opp_11 : opp 11 = 5 := rfl
theorem opp_12 : opp 12 = 4 := rfl
theorem opp_13 : opp 13 = 3 := rfl
theorem opp_14 : opp 14 = 2 := rfl
theorem opp_15 : opp 15 = 1 := rfl

def offs : List (Fin 16) := [1, 15, 2, 14, 3, 13, 4, 12, 5, 11, 6, 10, 7, 9, 8]

theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 15 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 14 := by revert c; decide +kernel
theorem dev5_eq (c : Dev nD) : (⟨k0_dev5 c, k0_dev5_lt c⟩ : Dev nD) = peer c 3 := by revert c; decide +kernel
theorem dev6_eq (c : Dev nD) : (⟨k0_dev6 c, k0_dev6_lt c⟩ : Dev nD) = peer c 13 := by revert c; decide +kernel
theorem dev7_eq (c : Dev nD) : (⟨k0_dev7 c, k0_dev7_lt c⟩ : Dev nD) = peer c 4 := by revert c; decide +kernel
theorem dev8_eq (c : Dev nD) : (⟨k0_dev8 c, k0_dev8_lt c⟩ : Dev nD) = peer c 12 := by revert c; decide +kernel
theorem dev9_eq (c : Dev nD) : (⟨k0_dev9 c, k0_dev9_lt c⟩ : Dev nD) = peer c 5 := by revert c; decide +kernel
theorem dev10_eq (c : Dev nD) : (⟨k0_dev10 c, k0_dev10_lt c⟩ : Dev nD) = peer c 11 := by revert c; decide +kernel
theorem dev11_eq (c : Dev nD) : (⟨k0_dev11 c, k0_dev11_lt c⟩ : Dev nD) = peer c 6 := by revert c; decide +kernel
theorem dev12_eq (c : Dev nD) : (⟨k0_dev12 c, k0_dev12_lt c⟩ : Dev nD) = peer c 10 := by revert c; decide +kernel
theorem dev13_eq (c : Dev nD) : (⟨k0_dev13 c, k0_dev13_lt c⟩ : Dev nD) = peer c 7 := by revert c; decide +kernel
theorem dev14_eq (c : Dev nD) : (⟨k0_dev14 c, k0_dev14_lt c⟩ : Dev nD) = peer c 9 := by revert c; decide +kernel
theorem dev15_eq (c : Dev nD) : (⟨k0_dev15 c, k0_dev15_lt c⟩ : Dev nD) = peer c 8 := by revert c; decide +kernel
theorem dev16_eq (c : Dev nD) : (⟨k0_dev16 c, k0_dev16_lt c⟩ : Dev nD) = peer c 1 := by revert c; decide +kernel
theorem dev17_eq (c : Dev nD) : (⟨k0_dev17 c, k0_dev17_lt c⟩ : Dev nD) = peer c 15 := by revert c; decide +kernel
theorem dev18_eq (c : Dev nD) : (⟨k0_dev18 c, k0_dev18_lt c⟩ : Dev nD) = peer c 2 := by revert c; decide +kernel
theorem dev19_eq (c : Dev nD) : (⟨k0_dev19 c, k0_dev19_lt c⟩ : Dev nD) = peer c 14 := by revert c; decide +kernel
theorem dev20_eq (c : Dev nD) : (⟨k0_dev20 c, k0_dev20_lt c⟩ : Dev nD) = peer c 3 := by revert c; decide +kernel
theorem dev21_eq (c : Dev nD) : (⟨k0_dev21 c, k0_dev21_lt c⟩ : Dev nD) = peer c 13 := by revert c; decide +kernel
theorem dev22_eq (c : Dev nD) : (⟨k0_dev22 c, k0_dev22_lt c⟩ : Dev nD) = peer c 4 := by revert c; decide +kernel
theorem dev23_eq (c : Dev nD) : (⟨k0_dev23 c, k0_dev23_lt c⟩ : Dev nD) = peer c 12 := by revert c; decide +kernel
theorem dev24_eq (c : Dev nD) : (⟨k0_dev24 c, k0_dev24_lt c⟩ : Dev nD) = peer c 5 := by revert c; decide +kernel
theorem dev25_eq (c : Dev nD) : (⟨k0_dev25 c, k0_dev25_lt c⟩ : Dev nD) = peer c 11 := by revert c; decide +kernel
theorem dev26_eq (c : Dev nD) : (⟨k0_dev26 c, k0_dev26_lt c⟩ : Dev nD) = peer c 6 := by revert c; decide +kernel
theorem dev27_eq (c : Dev nD) : (⟨k0_dev27 c, k0_dev27_lt c⟩ : Dev nD) = peer c 10 := by revert c; decide +kernel
theorem dev28_eq (c : Dev nD) : (⟨k0_dev28 c, k0_dev28_lt c⟩ : Dev nD) = peer c 7 := by revert c; decide +kernel
theorem dev29_eq (c : Dev nD) : (⟨k0_dev29 c, k0_dev29_lt c⟩ : Dev nD) = peer c 9 := by revert c; decide +kernel
theorem dev30_eq (c : Dev nD) : (⟨k0_dev30 c, k0_dev30_lt c⟩ : Dev nD) = peer c 8 := by revert c; decide +kernel
theorem dev31_eq (c : Dev nD) : (⟨k0_dev31 c, k0_dev31_lt c⟩ : Dev nD) = peer c 1 := by revert c; decide +kernel
theorem dev32_eq (c : Dev nD) : (⟨k0_dev32 c, k0_dev32_lt c⟩ : Dev nD) = peer c 15 := by revert c; decide +kernel
theorem dev33_eq (c : Dev nD) : (⟨k0_dev33 c, k0_dev33_lt c⟩ : Dev nD) = peer c 2 := by revert c; decide +kernel
theorem dev34_eq (c : Dev nD) : (⟨k0_dev34 c, k0_dev34_lt c⟩ : Dev nD) = peer c 14 := by revert c; decide +kernel
theorem dev35_eq (c : Dev nD) : (⟨k0_dev35 c, k0_dev35_lt c⟩ : Dev nD) = peer c 3 := by revert c; decide +kernel
theorem dev36_eq (c : Dev nD) : (⟨k0_dev36 c, k0_dev36_lt c⟩ : Dev nD) = peer c 13 := by revert c; decide +kernel
theorem dev37_eq (c : Dev nD) : (⟨k0_dev37 c, k0_dev37_lt c⟩ : Dev nD) = peer c 4 := by revert c; decide +kernel
theorem dev38_eq (c : Dev nD) : (⟨k0_dev38 c, k0_dev38_lt c⟩ : Dev nD) = peer c 12 := by revert c; decide +kernel
theorem dev39_eq (c : Dev nD) : (⟨k0_dev39 c, k0_dev39_lt c⟩ : Dev nD) = peer c 5 := by revert c; decide +kernel
theorem dev40_eq (c : Dev nD) : (⟨k0_dev40 c, k0_dev40_lt c⟩ : Dev nD) = peer c 11 := by revert c; decide +kernel
theorem dev41_eq (c : Dev nD) : (⟨k0_dev41 c, k0_dev41_lt c⟩ : Dev nD) = peer c 6 := by revert c; decide +kernel
theorem dev42_eq (c : Dev nD) : (⟨k0_dev42 c, k0_dev42_lt c⟩ : Dev nD) = peer c 10 := by revert c; decide +kernel
theorem dev43_eq (c : Dev nD) : (⟨k0_dev43 c, k0_dev43_lt c⟩ : Dev nD) = peer c 7 := by revert c; decide +kernel
theorem dev44_eq (c : Dev nD) : (⟨k0_dev44 c, k0_dev44_lt c⟩ : Dev nD) = peer c 9 := by revert c; decide +kernel
theorem dev45_eq (c : Dev nD) : (⟨k0_dev45 c, k0_dev45_lt c⟩ : Dev nD) = peer c 8 := by revert c; decide +kernel

theorem off1_eq (c : Dev nD) (k : Fin 16) : k0_off1 c (BitVec.ofNat 32 k.val) = ![32 * (peer c k).val, 0] := by revert c k; decide +kernel
theorem off3_eq (c : Dev nD) (k : Fin 16) : k0_off3 c (BitVec.ofNat 32 k.val) = ![32 * (peer c k).val, 0] := by revert c k; decide +kernel

abbrev xM : Memref sig .tc .vmem S512x512 .f32 := Memref.whole cc0_stg0_0
abbrev oM : Memref sig .tc .vmem S512x512 .f32 := Memref.whole cc0_stg1_0
abbrev xbM : Memref sig .tc .vmem S512x512 .bf16 := Memref.whole cc0_scratch0
abbrev agsM : Memref sig .tc .vmem S32x512 .bf16 := Memref.whole cc0_scratch1
abbrev rsM : Memref sig .tc .vmem S16x32x512 .bf16 := Memref.whole cc0_scratch2
abbrev agM : Memref sig .tc .vmem S16x32x512 .bf16 := Memref.whole cc0_scratch3

theorem inb_slot (s : Fin 16) : ∀ a, (![s.val, 0, 0] : Fin 3 → Nat) a + S1x32x512.size a ≤ S16x32x512.size a := by revert s; decide
theorem inb_sem (s : Fin 16) : ∀ a, (![s.val] : Fin 1 → Nat) a + S1.size a ≤ S16.size a := by revert s; decide

def slotOf (B : Memref sig .tc .vmem S16x32x512 .bf16) (s : Fin 16) : Memref sig .tc .vmem S32x512 .bf16 :=
  (B.slice (Rect.unit (s := S16x32x512) ![s.val, 0, 0] S1x32x512.size (inb_slot s)) (fun _ => rfl)).squeeze S32x512 squeezes_S1x32x512_S32x512

def semAt (A : DmaSems sig S16) (s : Fin 16) : DmaSem sig :=
  ((A.slice (Rect.unit (s := S16) ![s.val] S1.size (inb_sem s))).squeeze S_ squeezes_S1_S_).sem

abbrev barS : Sem sig := (SemArray.scalar (sig.barrier 13 rfl) : Sems sig S_).sem

abbrev barCell (c : Dev nD) : GSem nD τ sig := ((c : Thread nD τ), .reg barS)
abbrev rsSend (c : Dev nD) (s : Fin 16) : GSem nD τ sig := ((c : Thread nD τ), .dma (semAt cc0_scratch4 s))
abbrev rsRecv (c : Dev nD) (s : Fin 16) : GSem nD τ sig := ((c : Thread nD τ), .dma (semAt cc0_scratch5 s))
abbrev agSend (c : Dev nD) (s : Fin 16) : GSem nD τ sig := ((c : Thread nD τ), .dma (semAt cc0_scratch6 s))
abbrev agRecv (c : Dev nD) (s : Fin 16) : GSem nD τ sig := ((c : Thread nD τ), .dma (semAt cc0_scratch7 s))

abbrev N : ℕ := (slotOf rsM 1).view.dmaCredit
theorem N_pos : 0 < N := View.dmaCredit_pos _ (by decide)
abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def xC (c : Dev nD) : (cc0_stg0_0 : Ref sig .tc).ty.Contents (Elt F) :=
  (win0_0.blk (0 : Fin 1)).view.read (Elt F) ((s₀ m ρ).mem ((c : Thread nD τ).loc main_arg0))

def xbC (c : Dev nD) : (cc0_scratch0 : Ref sig .tc).ty.Contents (Elt F) := k0_pay1 (xC m ρ c)

def pred15 (k : Fin 16) : Fin 15 := ⟨k.val - 1, by omega⟩

def srcSl (c : Dev nD) (k : Fin 16) : Memref sig .tc .vmem S32x512 .bf16 :=
  xbM.slice (Rect.unit (s := S512x512) (k0_off1 c (BitVec.ofNat 32 (1 + (pred15 k).val))) S32x512.size (k0_off1_inb c (pred15 k))) (fun _ => rfl)

def chunk (c : Dev nD) (k : Fin 16) : Vec F S32x512 .bf16 := (srcSl c k).view.read (Elt F) (xbC m ρ c)

def unsq (X : Vec F S32x512 .bf16) : Vec F S1x32x512 .bf16 := shapeCast S1x32x512 X (by decide)

def got (c : Dev nD) (s : Fin 16) : Vec F S32x512 .bf16 := chunk m ρ (peer c s) (opp s)

def ownRows (c : Dev nD) : Vec F S32x512 .f32 :=
  xM.view.readAt (Elt F) (Rect.unit (s := S512x512) (k0_off2 c) S32x512.size (k0_off2_inb c)).toLoadRect (xC m ρ c)

def partial14 (c : Dev nD) : FVec F S32x512 .bf16 :=
  k0_pay7 (k0_pay6 (k0_pay5 (k0_pay4 (k0_pay3 (k0_pay2 (ownRows m ρ c)) (unsq (got m ρ c 15)) (unsq (got m ρ c 1)))
    (unsq (got m ρ c 14)) (unsq (got m ρ c 2)) (unsq (got m ρ c 13))) (unsq (got m ρ c 3)) (unsq (got m ρ c 12)) (unsq (got m ρ c 4)))
    (unsq (got m ρ c 11)) (unsq (got m ρ c 5)) (unsq (got m ρ c 10))) (unsq (got m ρ c 6)) (unsq (got m ρ c 9))
def reduced (c : Dev nD) : FVec F S32x512 .bf16 := k0_pay8 (partial14 m ρ c) (unsq (got m ρ c 7)) (unsq (got m ρ c 8))
def redC (c : Dev nD) : (cc0_scratch1 : Ref sig .tc).ty.Contents (Elt F) := k0_pay9 (partial14 m ρ c) (unsq (got m ρ c 7)) (unsq (got m ρ c 8))

def slotPts (B : Memref sig .tc .vmem S16x32x512 .bf16) (c : Dev nD) (s : Fin 16) (f : Buf (Elt F) ((slotOf B s).view.loc (c : Thread nD τ))) : sProp 𝕄 :=
  (slotOf B s).view.loc (c : Thread nD τ) ↦[(slotOf B s).view.set]{fullShare} f

omit [FloatOps F] in
instance slotPts_storable (B) (c : Dev nD) (s : Fin 16) (f) : BI.Storable (upEmb : UEmb _ 𝕄) (slotPts (F := F) B c s f) := by unfold slotPts; infer_instance

def remSh : ℕ → PosShare TreeShare
  | 0 => fullShare
  | n + 1 => (remSh n).right
def pieceSh (n : ℕ) : PosShare TreeShare := (remSh n).left

def posOf (s : Fin 16) : ℕ := (offs.map opp).idxOf s

def barPay (c : Dev nD) (d : Fin 16) : sProp 𝕄 :=
  iprop((∃ f, slotPts rsM (peer c d) (opp d) f) ∗ (∃ f, slotPts agM (peer c d) (opp d) f))
def xbAt (c : Dev nD) (k : Fin 16) : Buf (Elt F) ((srcSl c k).view.loc (c : Thread nD τ)) := xbC m ρ c
def redAt (c : Dev nD) : Buf (Elt F) (agsM.view.loc (c : Thread nD τ)) := redC m ρ c

def rsSendPay (c : Dev nD) (s : Fin 16) : sProp 𝕄 :=
  (srcSl c (opp s)).view.loc (c : Thread nD τ) ↦[(srcSl c (opp s)).view.set]{fullShare} xbAt m ρ c (opp s)
def rsRecvPay (c : Dev nD) (s : Fin 16) : sProp 𝕄 :=
  iprop(∃ f, slotPts rsM c s f ∗ ⌜(slotOf rsM s).view.read (Elt F) f = got m ρ c s⌝)
def agSendPay (c : Dev nD) (s : Fin 16) : sProp 𝕄 :=
  agsM.view.loc (c : Thread nD τ) ↦[agsM.view.set]{pieceSh (posOf s)} redAt m ρ c
def agRecvPay (c : Dev nD) (s : Fin 16) : sProp 𝕄 :=
  iprop(∃ f, slotPts agM c s f ∗ ⌜(slotOf agM s).view.read (Elt F) f = agsM.view.read (Elt F) (redC m ρ (peer c s))⌝)

def slotIx (q : DmaSem sig) : Option (Fin 4 × Fin 16) :=
  if h : 2 ≤ q.val then some (⟨(q.val - 2) / 16, by have : q.val < 66 := q.isLt; omega⟩, ⟨(q.val - 2) % 16, Nat.mod_lt _ (by decide)⟩) else none

theorem slotIx_4 (s : Fin 16) : slotIx (semAt cc0_scratch4 s) = some (0, s) := by revert s; decide
theorem slotIx_5 (s : Fin 16) : slotIx (semAt cc0_scratch5 s) = some (1, s) := by revert s; decide
theorem slotIx_6 (s : Fin 16) : slotIx (semAt cc0_scratch6 s) = some (2, s) := by revert s; decide
theorem slotIx_7 (s : Fin 16) : slotIx (semAt cc0_scratch7 s) = some (3, s) := by revert s; decide

def dutiesOf : SemLoc sig → Finset (Fin 16)
  | .reg b => if b = barS then Finset.univ.erase 0 else ∅
  | .dma q => match slotIx q with
    | some (_, s) => if s = 0 then ∅ else {0}
    | none => ∅

def payOf (c : Dev nD) : SemLoc sig → Fin 16 → sProp 𝕄
  | .reg b, d => if b = barS then barPay c d else iprop(emp)
  | .dma q, _ => match slotIx q with
    | some (a, s) => if a = 0 then rsSendPay m ρ c s else if a = 1 then rsRecvPay m ρ c s else if a = 2 then agSendPay m ρ c s else agRecvPay m ρ c s
    | none => iprop(emp)

def Rd : Rounds.Schedule (GSem nD τ sig) (Fin 16) 𝕄 where
  duties g r := if r = 0 ∧ g.1.2 = .tc then dutiesOf g.2 else ∅
  unitless _ := False
  amount g _ _ := match g.2 with | .reg _ => 1 | .dma _ => N
  payload g _ d := payOf m ρ g.1.1 g.2 d
  amount_pos g _ _ _ := by
    cases g.2 with
    | reg _ => exact Nat.one_pos
    | dma _ => exact N_pos

instance Rd_payload_storable (g : GSem nD τ sig) (r : ℕ) (d : Fin 16) :
    BI.Storable (upEmb : UEmb _ 𝕄) ((Rd (F := F) m ρ).payload g r d) := by
  show BI.Storable upEmb (payOf m ρ g.1.1 g.2 d)
  unfold payOf barPay rsSendPay rsRecvPay agSendPay agRecvPay slotPts
  (repeat' split) <;> infer_instance

section Sched
variable (c : Dev nD)

theorem duties_bar : (Rd (F := F) m ρ).duties (barCell c) 0 = Finset.univ.erase 0 := by
  dsimp only [Rd]; rw [if_pos ⟨rfl, rfl⟩]; simp only [dutiesOf] <;> first | rfl | exact if_pos rfl | exact if_pos trivial
theorem duties_rsSend {s : Fin 16} (hs : s ≠ 0) : (Rd (F := F) m ρ).duties (rsSend c s) 0 = {0} := by
  dsimp only [Rd]; rw [if_pos ⟨rfl, rfl⟩]; simp only [dutiesOf, slotIx_4]; exact if_neg hs
theorem duties_rsRecv {s : Fin 16} (hs : s ≠ 0) : (Rd (F := F) m ρ).duties (rsRecv c s) 0 = {0} := by
  dsimp only [Rd]; rw [if_pos ⟨rfl, rfl⟩]; simp only [dutiesOf, slotIx_5]; exact if_neg hs
theorem duties_agSend {s : Fin 16} (hs : s ≠ 0) : (Rd (F := F) m ρ).duties (agSend c s) 0 = {0} := by
  dsimp only [Rd]; rw [if_pos ⟨rfl, rfl⟩]; simp only [dutiesOf, slotIx_6]; exact if_neg hs
theorem duties_agRecv {s : Fin 16} (hs : s ≠ 0) : (Rd (F := F) m ρ).duties (agRecv c s) 0 = {0} := by
  dsimp only [Rd]; rw [if_pos ⟨rfl, rfl⟩]; simp only [dutiesOf, slotIx_7]; exact if_neg hs
theorem duties_later (g : GSem nD τ sig) : ∀ r, 1 ≤ r → (Rd (F := F) m ρ).duties g r = ∅ :=
  fun r hr => by dsimp only [Rd]; rw [if_neg fun h => by omega]
theorem duties_slot0 (A : DmaSems sig S16) (hA : ∃ a, slotIx (semAt A 0) = some (a, 0)) : ∀ r, 0 ≤ r →
    (Rd (F := F) m ρ).duties ((c : Thread nD τ), .dma (semAt A 0)) r = ∅ := fun r _ => by
  obtain ⟨a, ha⟩ := hA
  dsimp only [Rd]; split
  · simp only [dutiesOf, ha]; rfl
  · rfl

theorem amount_bar (d : Fin 16) : (Rd (F := F) m ρ).amount (barCell c) 0 d = 1 := rfl
theorem amount_dma (q : DmaSem sig) (d : Fin 16) : (Rd (F := F) m ρ).amount ((c : Thread nD τ), .dma q) 0 d = N := rfl

theorem expect_bar : (Rd (F := F) m ρ).expect (barCell c) 0 = 15 := by
  unfold Schedule.expect Schedule.amountOf
  rw [duties_bar, Finset.sum_congr rfl fun d _ => amount_bar m ρ c d, Finset.sum_const, smul_eq_mul, mul_one]; decide
theorem expect_rsSend {s : Fin 16} (hs : s ≠ 0) : (Rd (F := F) m ρ).expect (rsSend c s) 0 = N := by
  unfold Schedule.expect Schedule.amountOf; rw [duties_rsSend m ρ c hs, Finset.sum_singleton]; rfl
theorem expect_rsRecv {s : Fin 16} (hs : s ≠ 0) : (Rd (F := F) m ρ).expect (rsRecv c s) 0 = N := by
  unfold Schedule.expect Schedule.amountOf; rw [duties_rsRecv m ρ c hs, Finset.sum_singleton]; rfl
theorem expect_agSend {s : Fin 16} (hs : s ≠ 0) : (Rd (F := F) m ρ).expect (agSend c s) 0 = N := by
  unfold Schedule.expect Schedule.amountOf; rw [duties_agSend m ρ c hs, Finset.sum_singleton]; rfl
theorem expect_agRecv {s : Fin 16} (hs : s ≠ 0) : (Rd (F := F) m ρ).expect (agRecv c s) 0 = N := by
  unfold Schedule.expect Schedule.amountOf; rw [duties_agRecv m ρ c hs, Finset.sum_singleton]; rfl

theorem payload_bar (d : Fin 16) : (Rd (F := F) m ρ).payload (barCell c) 0 d = barPay c d := by
  dsimp only [Rd, payOf]; exact if_pos rfl
theorem payload_rsSend (s d : Fin 16) : (Rd (F := F) m ρ).payload (rsSend c s) 0 d = rsSendPay m ρ c s := by
  show payOf m ρ c (.dma (semAt cc0_scratch4 s)) d = _
  simp only [payOf, slotIx_4] <;> first | rfl | exact if_pos trivial
theorem payload_rsRecv (s d : Fin 16) : (Rd (F := F) m ρ).payload (rsRecv c s) 0 d = rsRecvPay m ρ c s := by
  show payOf m ρ c (.dma (semAt cc0_scratch5 s)) d = _
  simp only [payOf, slotIx_5] <;> first | rfl | exact if_pos trivial
theorem payload_agSend (s d : Fin 16) : (Rd (F := F) m ρ).payload (agSend c s) 0 d = agSendPay m ρ c s := by
  show payOf m ρ c (.dma (semAt cc0_scratch6 s)) d = _
  simp only [payOf, slotIx_6] <;> first | rfl | exact if_pos trivial
theorem payload_agRecv (s d : Fin 16) : (Rd (F := F) m ρ).payload (agRecv c s) 0 d = agRecvPay m ρ c s := by
  show payOf m ρ c (.dma (semAt cc0_scratch7 s)) d = _
  simp only [payOf, slotIx_7] <;> first | rfl | exact if_pos trivial

theorem rest_bar :
    bigSep ((Rd (F := F) m ρ).duties (barCell c) 0 \ ∅) (fun d => (Rd (F := F) m ρ).payload (barCell c) 0 d)
      = bigSep (Finset.univ.erase (0 : Fin 16)) (fun d => (barPay c d : sProp 𝕄)) := by
  rw [Finset.sdiff_empty, duties_bar]; exact bigSep_congr fun d _ => payload_bar m ρ c d

end Sched

def sumL (l : List (Fin 16)) (f : Fin 16 → CellTallies nD τ sig Unit) : CellTallies nD τ sig Unit :=
  l.foldr (fun k acc => acc + f k) 0
theorem sumL_cons (k : Fin 16) (l : List (Fin 16)) (f : Fin 16 → CellTallies nD τ sig Unit) : sumL (k :: l) f = sumL l f + f k := rfl
theorem sumL_nil (f : Fin 16 → CellTallies nD τ sig Unit) : sumL [] f = 0 := rfl

def sigT (c : Dev nD) (k : Fin 16) : CellTallies nD τ sig Unit := tallyAt (barCell (peer c k)) () 1
def rsT (c : Dev nD) (k : Fin 16) : CellTallies nD τ sig Unit := tallyAt (rsRecv (peer c k) (opp k)) () N
def agT (c : Dev nD) (k : Fin 16) : CellTallies nD τ sig Unit := tallyAt (agRecv (peer c k) (opp k)) () N

def owesAt (c : Dev nD) (ls lr la : List (Fin 16)) : CellTallies nD τ sig Unit :=
  sumL la (agT c) + sumL lr (rsT c) + sumL ls (sigT c)
def O₀ (c : Dev nD) : CellTallies nD τ sig Unit := owesAt c offs offs offs

def L (g : GSem nD τ sig) : Finset Unit := if g.1.2 = .tc then {()} else ∅
def lv (g : GSem nD τ sig) (_ : Unit) : ℕ := match g.2 with
  | .reg _ => 1
  | .dma q => match slotIx q with
    | some (a, _) => if a = 1 then 2 else if a = 3 then 3 else 0
    | none => 0

theorem L_of_ne (g : GSem nD τ sig) (h : g.1.2 ≠ .tc) : L g = ∅ := if_neg h
theorem L_tc (c : Dev nD) (sm : SemLoc sig) : L ((c : Thread nD τ), sm) = {()} := if_pos rfl

abbrev CK : Type := Option (Fin 4 × Fin 16)
def arrOf : Fin 4 → DmaSems sig S16 := ![cc0_scratch4, cc0_scratch5, cc0_scratch6, cc0_scratch7]
def csem : CK → SemLoc sig
  | none => .reg barS
  | some (a, s) => .dma (semAt (arrOf a) s)
abbrev kcell (ck : Dev nD × CK) : GSem nD τ sig := ((ck.1 : Thread nD τ), csem ck.2)

def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)

instance records_persistent (K : Dev nD × CK → ℕ) : BI.Persistent (records m ρ K) := by unfold records; infer_instance

def posK (c : Dev nD) (s : Fin 16) : sProp 𝕄 :=
  iprop(atPos ER (rsSend c s) 0 ∅ 0 ∗ atPos ER (rsRecv c s) 0 ∅ 0 ∗ atPos ER (agSend c s) 0 ∅ 0 ∗ atPos ER (agRecv c s) 0 ∅ 0)
def positions (c : Dev nD) : sProp 𝕄 :=
  iprop(atPos ER (barCell c) 0 ∅ 0 ∗ posK c 0 ∗ bigSepL offs fun k => posK (F := F) c (opp k))
def semK (c : Dev nD) (s : Fin 16) : sProp 𝕄 :=
  iprop(semVal (rsSend c s) 0 ∗ semVal (rsRecv c s) 0 ∗ semVal (agSend c s) 0 ∗ semVal (agRecv c s) 0)

def payTok (c : Dev nD) (k : Fin 16) : sProp 𝕄 :=
  iprop(dutyTok ER (barCell (peer c k)) 0 (opp k)
    ∗ dutyTok ER (rsSend c (opp k)) 0 0 ∗ dutyTok ER (rsRecv (peer c k) (opp k)) 0 0
    ∗ dutyTok ER (agSend c (opp k)) 0 0 ∗ dutyTok ER (agRecv (peer c k) (opp k)) 0 0)
def payToks (c : Dev nD) : sProp 𝕄 := bigSepL offs (payTok (F := F) c)

def creds (c : Dev nD) : sProp 𝕄 :=
  iprop(cred (tallyAt (barCell c) () 15)
    ∗ bigSepL offs fun k => iprop(cred (tallyAt (rsRecv c (opp k)) () N) ∗ cred (tallyAt (agRecv c (opp k)) () N)))

def ghost (K : Dev nD × CK → ℕ) (c : Dev nD) : sProp 𝕄 := iprop(records m ρ K ∗ positions c ∗ payToks c)
def start (c : Dev nD) : sProp 𝕄 := iprop((∃ K, ghost m ρ K c) ∗ creds c ∗ levAts L lv)

def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m ρ c ∗ scr c)
def Φ₁ (c : Dev nD) : sProp 𝕄 := iprop(scr c ∗ semK c 0 ∗ bigSepL offs fun k => semK (F := F) c (opp k))

def putRows (off : Fin 2 → Nat) (h : ∀ a, off a + S32x512.size a ≤ S512x512.size a)
    (g : (cc0_stg1_0 : Ref sig .tc).ty.Contents (Elt F)) (w : Vec F S32x512 .f32) :
    (cc0_stg1_0 : Ref sig .tc).ty.Contents (Elt F) :=
  ((oM.access (Rect.unit (s := S512x512) off S32x512.size h) : View sig .tc _ _ _).write (Elt F) g w Finset.univ)

abbrev outOff (c : Dev nD) (s : Fin 16) : Fin 2 → Nat := k0_off3 c (BitVec.ofNat 32 (1 + (pred15 s).val))

def gotAg (c : Dev nD) (s : Fin 16) : Vec F S32x512 .bf16 := agsM.view.read (Elt F) (redC m ρ (peer c s))

def outAfter (c : Dev nD) (l : List (Fin 16)) (base : (cc0_stg1_0 : Ref sig .tc).ty.Contents (Elt F)) :
    (cc0_stg1_0 : Ref sig .tc).ty.Contents (Elt F) :=
  l.foldl (fun g s => putRows (outOff c s) (k0_off3_inb c (pred15 s)) g (k0_pay11 (unsq (gotAg m ρ c s)))) base

def outC (c : Dev nD) : (cc0_stg1_0 : Ref sig .tc).ty.Contents (Elt F) :=
  outAfter m ρ c (offs.map opp) (putRows (k0_off2 c) (k0_off2_inb c) (xC m ρ c) (k0_pay10 (reduced m ρ c)))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m ρ c
    | ⟨1, _⟩ => outC m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPost (c : Dev nD) : sProp 𝕄 :=
  iprop(Φ₁ c ∗ (dats m ρ 0 c).owesAt () t₀.succ ∗ stg c cc0_stg0_0 (xC m ρ c) ∗ stg c cc0_stg1_0 (outC m ρ c))

end Cert.KernelIdeal.Proto

end
-- ==== Proof.Levels.lean ====
import proofs.«901016_g7700000000001017_dist_rs_then_ag_i_m512_n512_v7x_i16_bf16_1_alg».proof.Proof.Proto

noncomputable section

namespace Cert.KernelIdeal.Levels

open Cert.KernelIdeal Cert.KernelIdeal.Gen Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem lv_bar (d : Dev nD) (u : Unit) : lv (barCell d) u = 1 := rfl
theorem lv_rsRecv (d : Dev nD) (s : Fin 16) (u : Unit) : lv (rsRecv d s) u = 2 := by
  unfold lv; simp only [slotIx_5]; rfl
theorem lv_agRecv (d : Dev nD) (s : Fin 16) (u : Unit) : lv (agRecv d s) u = 3 := by
  unfold lv; simp only [slotIx_7]; rfl

theorem sumL_pos {l : List (Fin 16)} {f : Fin 16 → CellTallies nD τ sig Unit} {g : GSem nD τ sig} {u : Unit}
    (h : 0 < sumL l f g u) : ∃ k ∈ l, 0 < f k g u := by
  induction l with
  | nil => rw [sumL_nil, Pi.zero_apply, Finsupp.zero_apply] at h; exact absurd h (Nat.lt_irrefl 0)
  | cons k l ih =>
    rw [sumL_cons, Pi.add_apply, Finsupp.add_apply] at h
    by_cases hk : 0 < f k g u
    · exact ⟨k, List.mem_cons_self, hk⟩
    · have hl : 0 < sumL l f g u := by omega
      obtain ⟨j, hj, hpos⟩ := ih hl
      exact ⟨j, List.mem_cons_of_mem _ hj, hpos⟩

theorem owesAt_pos {c : Dev nD} {ls lr la : List (Fin 16)} {g : GSem nD τ sig} {u : Unit}
    (h : 0 < owesAt c ls lr la g u) :
    (∃ k ∈ la, g = agRecv (peer c k) (opp k)) ∨ (∃ k ∈ lr, g = rsRecv (peer c k) (opp k))
      ∨ (∃ k ∈ ls, g = barCell (peer c k)) := by
  unfold owesAt at h
  rw [Pi.add_apply, Finsupp.add_apply, Pi.add_apply, Finsupp.add_apply] at h
  by_cases ha : 0 < sumL la (agT c) g u
  · obtain ⟨k, hk, hpos⟩ := sumL_pos ha
    exact Or.inl ⟨k, hk, (Pipeline.tallyAt_pos hpos).1⟩
  · by_cases hr : 0 < sumL lr (rsT c) g u
    · obtain ⟨k, hk, hpos⟩ := sumL_pos hr
      exact Or.inr (Or.inl ⟨k, hk, (Pipeline.tallyAt_pos hpos).1⟩)
    · have hs : 0 < sumL ls (sigT c) g u := by omega
      obtain ⟨k, hk, hpos⟩ := sumL_pos hs
      exact Or.inr (Or.inr ⟨k, hk, (Pipeline.tallyAt_pos hpos).1⟩)

theorem owesAt_nil (c : Dev nD) : owesAt c [] [] [] = 0 := by
  unfold owesAt; rw [sumL_nil, sumL_nil, sumL_nil, add_zero, add_zero]

theorem owesAt_mem_L {c : Dev nD} {ls lr la : List (Fin 16)} {g : GSem nD τ sig} {u : Unit}
    (h : 0 < owesAt c ls lr la g u) : u ∈ L g := by
  rcases owesAt_pos h with ⟨k, _, rfl⟩ | ⟨k, _, rfl⟩ | ⟨k, _, rfl⟩ <;> rw [L_tc] <;> exact Finset.mem_singleton_self _

theorem owesAt_lv_pos {c : Dev nD} {ls lr la : List (Fin 16)} {g : GSem nD τ sig} {u : Unit}
    (h : 0 < owesAt c ls lr la g u) : 0 < lv g u := by
  rcases owesAt_pos h with ⟨k, _, rfl⟩ | ⟨k, _, rfl⟩ | ⟨k, _, rfl⟩
  · rw [lv_agRecv]; decide
  · rw [lv_rsRecv]; decide
  · rw [lv_bar]; decide

omit [FloatOps F] in
theorem mayWait_bar (c : Dev nD) :
    (levAts L lv : sProp 𝕄) ⊢ MayWait (c : Thread nD τ) (.reg barS) () (owesAt c [] offs offs) :=
  MayOwe.of_cut (L := L) (lev := lv) 1
    (fun p hp => by rw [Finset.mem_singleton.mp hp, L_tc]; exact Finset.mem_singleton_self _)
    (fun g u hg => owesAt_mem_L hg)
    (fun p hp => by rw [Finset.mem_singleton.mp hp]; exact Nat.le_refl 1)
    (fun g u hg => by
      rcases owesAt_pos hg with ⟨k, _, rfl⟩ | ⟨k, _, rfl⟩ | ⟨k, hk, _⟩
      · rw [lv_agRecv]; decide
      · rw [lv_rsRecv]; decide
      · exact absurd hk List.not_mem_nil)

omit [FloatOps F] in
theorem mayWait_rsRecv (c : Dev nD) (s : Fin 16) :
    (levAts L lv : sProp 𝕄) ⊢ MayWait (c : Thread nD τ) (.dma (semAt cc0_scratch5 s)) () (owesAt c [] [] offs) :=
  MayOwe.of_cut (L := L) (lev := lv) 2
    (fun p hp => by rw [Finset.mem_singleton.mp hp, L_tc]; exact Finset.mem_singleton_self _)
    (fun g u hg => owesAt_mem_L hg)
    (fun p hp => by rw [Finset.mem_singleton.mp hp]; exact le_of_eq (lv_rsRecv c s ()))
    (fun g u hg => by
      rcases owesAt_pos hg with ⟨k, _, rfl⟩ | ⟨k, hk, _⟩ | ⟨k, hk, _⟩
      · rw [lv_agRecv]; decide
      · exact absurd hk List.not_mem_nil
      · exact absurd hk List.not_mem_nil)

omit [FloatOps F] in
/-- Send cells lie at level 0, below anything a device can still owe. -/
theorem mayWait_low (c : Dev nD) (q : DmaSem sig) (hq : lv ((c : Thread nD τ), .dma q) () = 0) (ls lr la : List (Fin 16)) :
    (levAts L lv : sProp 𝕄) ⊢ MayWait (c : Thread nD τ) (.dma q) () (owesAt c ls lr la) :=
  MayOwe.of_cut (L := L) (lev := lv) 0
    (fun p hp => by rw [Finset.mem_singleton.mp hp, L_tc]; exact Finset.mem_singleton_self _)
    (fun g u hg => owesAt_mem_L hg)
    (fun p hp => by rw [Finset.mem_singleton.mp hp]; exact le_of_eq hq)
    (fun g u hg => owesAt_lv_pos hg)

omit [FloatOps F] in
theorem mayWait_nil (c : Dev nD) (sm : SemLoc sig) :
    (levAts L lv : sProp 𝕄) ⊢ MayWait (c : Thread nD τ) sm () (owesAt c [] [] []) := by
  rw [owesAt_nil, MayWait_zero]; iintro -; iempintro

theorem lv_low_of_lt (c : Dev nD) (q : DmaSem sig) (h : q.val < 2) : lv ((c : Thread nD τ), .dma q) () = 0 := by
  have hs : slotIx q = none := by unfold slotIx; exact dif_neg (by omega)
  unfold lv; simp only [hs]

theorem lv_stage (c : Dev nD) (w : Fin cfg0.W) (s : Fin (cfg0.win w).nbuf) :
    lv ((c : Thread nD τ), .dma ((cfg0.win w).sem s)) () = 0 := by
  fin_cases w <;> fin_cases s <;> exact lv_low_of_lt c _ (by decide)

omit [FloatOps F] in
theorem mayWait_stage (c : Dev nD) (q : DmaSem sig) (hq : lv ((c : Thread nD τ), .dma q) () = 0)
    (O : CellTallies nD τ sig Unit) (hO : O = O₀ c ∨ O = 0) :
    (levAts L lv : sProp 𝕄) ⊢ MayWait (c : Thread nD τ) (.dma q) () O := by
  rcases hO with rfl | rfl
  · exact mayWait_low c q hq offs offs offs
  · rw [MayWait_zero]; iintro -; iempintro

variable (m : (ℓ : Loc nD τ sig) → Buf (Elt F) ℓ) (ρ : Dev nD → PrngReg)

theorem stageWaits (c : Dev nD) : (levAts L lv : sProp 𝕄) ⊢ Pipeline.cellsWaits cfgs (dats m ρ) () 0 c :=
  Pipeline.cellsWaits_intro cfgs (dats m ρ) () 0 c fun w s t =>
    mayWait_stage c _ (lv_stage c w s) _ (by
      rcases t with ⟨_ | _, ht⟩
      · exact Or.inl rfl
      · exact Or.inr rfl)

end Cert.KernelIdeal.Levels

end
-- ==== Proof.Launch.lean ====
import proofs.«901016_g7700000000001017_dist_rs_then_ag_i_m512_n512_v7x_i16_bf16_1_alg».proof.Proof.Proto
import proofs.«901016_g7700000000001017_dist_rs_then_ag_i_m512_n512_v7x_i16_bf16_1_alg».proof.Proof.Levels

noncomputable section

namespace Cert.KernelIdeal.LaunchPf

open Cert.KernelIdeal Cert.KernelIdeal.Gen Cert.KernelIdeal.Proto Cert.KernelIdeal.Levels
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev osem : Fin 4 × Fin 16 → SemLoc sig := fun ak => csem (some ak)

theorem csem_injective : Function.Injective csem := by decide +kernel

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

theorem kcell_eq_iff {x y : Dev nD × CK} : Iff (kcell x = kcell y) (x = y) := kcell_injective.eq_iff

theorem ownSemFacts : Pipeline.OwnSemFacts cfg0.spec osem := by decide +kernel

section Shapes
variable {M : Type} [URA M]

theorem bigSep_option {α : Type} [Fintype α] [DecidableEq α] (Φ : Option α → sProp M) :
    bigSep Finset.univ Φ = iprop(Φ none ∗ bigSep Finset.univ fun a : α => Φ (some a)) := by
  rw [bigSep_univ_at Φ none]
  have h : (Finset.univ : Finset (Option α)).erase none = Finset.univ.map Function.Embedding.some := by
    ext x; cases x <;> simp
  rw [h, bigSep_map]; rfl

theorem bigSep_fin4 (Φ : Fin 4 → sProp M) : bigSep Finset.univ Φ = iprop(Φ 0 ∗ Φ 1 ∗ Φ 2 ∗ Φ 3) :=
  bigSep_univ_eq_bigSepL [0, 1, 2, 3] (by decide) (by decide) Φ

theorem bigSep_slots (Φ : Fin 16 → sProp M) : bigSep Finset.univ Φ = iprop(Φ 0 ∗ bigSepL offs fun k => Φ (opp k)) :=
  bigSep_univ_eq_bigSepL (0 :: offs.map opp) (by decide) (by decide) Φ

theorem bigSep_offs (Φ : Fin 16 → sProp M) : bigSep Finset.univ Φ = iprop(Φ 0 ∗ bigSepL offs Φ) :=
  bigSep_univ_eq_bigSepL (0 :: offs) (by decide) (by decide) Φ

theorem bigSep_slots_ne (Φ : Fin 16 → sProp M) : bigSep (Finset.univ.erase 0) Φ = bigSepL offs fun k => Φ (opp k) :=
  bigSep_eq_bigSepL_of_eq (offs.map opp) (by decide) (by decide) Φ

theorem bigSep_arr_slot (Φ : Fin 4 × Fin 16 → sProp M) :
    bigSep Finset.univ Φ = bigSep Finset.univ fun s : Fin 16 => iprop(Φ (0, s) ∗ Φ (1, s) ∗ Φ (2, s) ∗ Φ (3, s)) := by
  rw [bigSep_univ_equiv (Equiv.prodComm (Fin 16) (Fin 4)) Φ, bigSep_univ_prod]
  exact bigSep_congr fun s _ => by rw [bigSep_fin4]; rfl

end Shapes

def ringCells : Finset (GSem nD τ sig) := Finset.univ.map ⟨kcell, kcell_injective⟩

abbrev tokOf (x : Dev nD × CK × Fin 16) : GSem nD τ sig × ℕ × Fin 16 := (kcell (x.1, x.2.1), 0, x.2.2)

theorem tokOf_injective : Function.Injective (tokOf : Dev nD × CK × Fin 16 → GSem nD τ sig × ℕ × Fin 16) := by
  rintro ⟨c, k, d⟩ ⟨c', k', d'⟩ h
  have h1 : (c, k) = (c', k') := kcell_injective (congrArg (fun x : GSem nD τ sig × ℕ × Fin 16 => x.1) h)
  have h2 : d = d' := congrArg (fun x : GSem nD τ sig × ℕ × Fin 16 => x.2.2) h
  cases h1; cases h2; rfl

def ringToks : Finset (GSem nD τ sig × ℕ × Fin 16) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 := bigSep Finset.univ fun kd : CK × Fin 16 => dutyTok ER (kcell (c, kd.1)) 0 kd.2

def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks c)

def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun ak : Fin 4 × Fin 16 => semVal (kcell (c, some ak)) 0 := rfl

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem inv_at (K : Dev nD × CK → ℕ) (ck : Dev nD × CK) :
    (bigSep Finset.univ fun ck : Dev nD × CK => (cellInv ER (Rd m ρ) (K ck) (kcell ck) : sProp 𝕄)) ⊢ cellInv ER (Rd m ρ) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)

omit [FloatOps F] in
theorem positions_eq (c : Dev nD) : (bigSep Finset.univ fun k : CK => (atPos ER (kcell (c, k)) 0 ∅ 0 : sProp 𝕄)) = positions c := by
  rw [bigSep_option, bigSep_arr_slot, bigSep_slots]; rfl

def around : Dev nD × Fin 16 ≃ Dev nD × Fin 16 where
  toFun p := (peer p.1 p.2, opp p.2)
  invFun p := (peer p.1 p.2, opp p.2)
  left_inv p := by rcases p with ⟨c, k⟩; exact Prod.ext (peer_opp c k) (opp_opp k)
  right_inv p := by rcases p with ⟨c, k⟩; exact Prod.ext (peer_opp c k) (opp_opp k)
def flipK : Dev nD × Fin 16 ≃ Dev nD × Fin 16 where
  toFun p := (p.1, opp p.2)
  invFun p := (p.1, opp p.2)
  left_inv p := by rcases p with ⟨c, k⟩; exact Prod.ext rfl (opp_opp k)
  right_inv p := by rcases p with ⟨c, k⟩; exact Prod.ext rfl (opp_opp k)

def tokFams : sProp 𝕄 :=
  iprop((bigSep Finset.univ fun p : Dev nD × Fin 16 => dutyTok ER (barCell p.1) 0 p.2)
    ∗ (bigSep Finset.univ fun p : Dev nD × Fin 16 => dutyTok ER (rsSend p.1 p.2) 0 0)
    ∗ (bigSep Finset.univ fun p : Dev nD × Fin 16 => dutyTok ER (rsRecv p.1 p.2) 0 0)
    ∗ (bigSep Finset.univ fun p : Dev nD × Fin 16 => dutyTok ER (agSend p.1 p.2) 0 0)
    ∗ (bigSep Finset.univ fun p : Dev nD × Fin 16 => dutyTok ER (agRecv p.1 p.2) 0 0))

omit [FloatOps F] in
theorem toks_own (c : Dev nD) : (toks c : sProp 𝕄) ⊢ iprop((bigSep Finset.univ fun d : Fin 16 => dutyTok ER (barCell c) 0 d)
    ∗ bigSep Finset.univ fun s : Fin 16 => iprop(dutyTok ER (rsSend c s) 0 0 ∗ dutyTok ER (rsRecv c s) 0 0 ∗ dutyTok ER (agSend c s) 0 0 ∗ dutyTok ER (agRecv c s) 0 0)) := by
  unfold toks
  rw [bigSep_univ_prod, bigSep_option]
  refine sep_mono .rfl ?_
  refine (bigSep_mono fun a _ => bigSep_elim (Finset.mem_univ (0 : Fin 16))).trans ?_
  exact Entails.of_eq (bigSep_arr_slot fun a : Fin 4 × Fin 16 => (dutyTok ER (kcell (c, some a)) 0 0 : sProp 𝕄))

omit [FloatOps F] in
theorem toks_fams : (bigSep Finset.univ fun c : Dev nD => (toks c : sProp 𝕄)) ⊢ tokFams (F := F) := by
  have e : (bigSep Finset.univ fun c : Dev nD => iprop((bigSep Finset.univ fun d : Fin 16 => dutyTok ER (barCell c) 0 d)
      ∗ bigSep Finset.univ fun s : Fin 16 => iprop(dutyTok ER (rsSend c s) 0 0 ∗ dutyTok ER (rsRecv c s) 0 0 ∗ dutyTok ER (agSend c s) 0 0 ∗ dutyTok ER (agRecv c s) 0 0)) : sProp 𝕄)
      = tokFams (F := F) := by
    unfold tokFams
    rw [bigSep_sep', ← bigSep_univ_prod (fun p : Dev nD × Fin 16 => (dutyTok ER (barCell p.1) 0 p.2 : sProp 𝕄)),
      ← bigSep_univ_prod (fun p : Dev nD × Fin 16 => iprop(dutyTok ER (rsSend p.1 p.2) 0 0 ∗ dutyTok ER (rsRecv p.1 p.2) 0 0 ∗ dutyTok ER (agSend p.1 p.2) 0 0 ∗ dutyTok ER (agRecv p.1 p.2) 0 0 : sProp 𝕄)),
      bigSep_sep', bigSep_sep', bigSep_sep']
  exact (bigSep_mono fun c _ => toks_own c).trans (Entails.of_eq e)

omit [FloatOps F] in
theorem payTok_fams : (bigSep Finset.univ fun c : Dev nD => bigSep Finset.univ fun k : Fin 16 => (payTok c k : sProp 𝕄)) = tokFams (F := F) := by
  unfold tokFams
  rw [← bigSep_univ_prod (fun p : Dev nD × Fin 16 => (payTok p.1 p.2 : sProp 𝕄))]
  unfold payTok
  rw [bigSep_sep', bigSep_sep', bigSep_sep', bigSep_sep',
    bigSep_univ_equiv around (fun p : Dev nD × Fin 16 => (dutyTok ER (barCell p.1) 0 p.2 : sProp 𝕄)),
    bigSep_univ_equiv flipK (fun p : Dev nD × Fin 16 => (dutyTok ER (rsSend p.1 p.2) 0 0 : sProp 𝕄)),
    bigSep_univ_equiv around (fun p : Dev nD × Fin 16 => (dutyTok ER (rsRecv p.1 p.2) 0 0 : sProp 𝕄)),
    bigSep_univ_equiv flipK (fun p : Dev nD × Fin 16 => (dutyTok ER (agSend p.1 p.2) 0 0 : sProp 𝕄)),
    bigSep_univ_equiv around (fun p : Dev nD × Fin 16 => (dutyTok ER (agRecv p.1 p.2) 0 0 : sProp 𝕄))]
  rfl

omit [FloatOps F] in
theorem payToks_of_all (c : Dev nD) : (bigSep Finset.univ fun k : Fin 16 => (payTok c k : sProp 𝕄)) ⊢ payToks c := by
  rw [bigSep_offs]; unfold payToks
  iintro ⟨-, H⟩; iexact H

omit [FloatOps F] in
theorem toks_around : (bigSep Finset.univ fun c : Dev nD => (toks c : sProp 𝕄)) ⊢ bigSep Finset.univ fun c : Dev nD => payToks c :=
  toks_fams.trans ((Entails.of_eq payTok_fams.symm).trans (bigSep_mono fun c _ => payToks_of_all c))

theorem ghost_intro (K : Dev nD × CK → ℕ) (c : Dev nD) : iprop(records m ρ K ∗ positions c ∗ payToks c) ⊢ G' m ρ c := by
  unfold G' ghost
  iintro H; iexists K; iexact H

theorem regroup :
    (bigSep Finset.univ fun c : Dev nD => iprop((bigSep Finset.univ fun k => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (positions c : sProp 𝕄)) payToks).symm)
    isplitl [Hat]
    · iapply (Entails.of_eq (bigSep_congr (s := Finset.univ) fun (c : Dev nD) _ => positions_eq (F := F) c)); iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

section Credit

omit [FloatOps F] in
theorem barCell_eq (c : Dev nD) : barCell c = kcell (c, none) := rfl
omit [FloatOps F] in
theorem rsRecv_eq (c : Dev nD) (s : Fin 16) : rsRecv c s = kcell (c, some (1, s)) := rfl
omit [FloatOps F] in
theorem agRecv_eq (c : Dev nD) (s : Fin 16) : agRecv c s = kcell (c, some (3, s)) := rfl

omit [FloatOps F] in
theorem bar_eq_iff {a b : Dev nD} : Iff (barCell a = barCell b) (a = b) := by
  rw [barCell_eq, barCell_eq, kcell_eq_iff]; exact ⟨fun h => (Prod.mk.inj h).1, fun h => h ▸ rfl⟩
omit [FloatOps F] in
theorem rsRecv_eq_iff {a b : Dev nD} {s t : Fin 16} : Iff (rsRecv a s = rsRecv b t) (a = b ∧ s = t) := by
  rw [rsRecv_eq, rsRecv_eq, kcell_eq_iff]
  exact ⟨fun h => ⟨(Prod.mk.inj h).1, (Prod.mk.inj (Option.some.inj (Prod.mk.inj h).2)).2⟩, fun ⟨h1, h2⟩ => h1 ▸ h2 ▸ rfl⟩
omit [FloatOps F] in
theorem agRecv_eq_iff {a b : Dev nD} {s t : Fin 16} : Iff (agRecv a s = agRecv b t) (a = b ∧ s = t) := by
  rw [agRecv_eq, agRecv_eq, kcell_eq_iff]
  exact ⟨fun h => ⟨(Prod.mk.inj h).1, (Prod.mk.inj (Option.some.inj (Prod.mk.inj h).2)).2⟩, fun ⟨h1, h2⟩ => h1 ▸ h2 ▸ rfl⟩
omit [FloatOps F] in
theorem bar_ne_rsRecv {a b : Dev nD} {t : Fin 16} : barCell a ≠ rsRecv b t := fun h => by
  rw [barCell_eq, rsRecv_eq, kcell_eq_iff] at h; cases (Prod.mk.inj h).2
omit [FloatOps F] in
theorem bar_ne_agRecv {a b : Dev nD} {t : Fin 16} : barCell a ≠ agRecv b t := fun h => by
  rw [barCell_eq, agRecv_eq, kcell_eq_iff] at h; cases (Prod.mk.inj h).2
omit [FloatOps F] in
theorem rsRecv_ne_agRecv {a b : Dev nD} {s t : Fin 16} : rsRecv a s ≠ agRecv b t := fun h => by
  rw [rsRecv_eq, agRecv_eq, kcell_eq_iff] at h
  exact absurd (Prod.mk.inj (Option.some.inj (Prod.mk.inj h).2)).1 (by decide)

omit [FloatOps F] in
theorem sumL_tally (l : List (Fin 16)) (cell : Fin 16 → GSem nD τ sig) (n : ℕ) (g : GSem nD τ sig) :
    sumL l (fun k => tallyAt (cell k) () n) g () = n * l.countP (fun k => decide (g = cell k)) := by
  induction l with
  | nil => rw [sumL_nil, List.countP_nil, Nat.mul_zero]; rfl
  | cons k l ih =>
    rw [sumL_cons, Pi.add_apply, Finsupp.add_apply, ih, tallyAt_apply, List.countP_cons]
    by_cases h : g = cell k
    · rw [if_pos ⟨h, rfl⟩, if_pos (decide_eq_true h), Nat.mul_add, Nat.mul_one]
    · rw [if_neg (fun h' => h h'.1), if_neg (fun h' => h (of_decide_eq_true h')), Nat.add_zero, Nat.add_zero]

omit [FloatOps F] in
theorem O₀_apply (d : Dev nD) (g : GSem nD τ sig) :
    O₀ d g () = N * offs.countP (fun k => decide (g = agRecv (peer d k) (opp k)))
      + N * offs.countP (fun k => decide (g = rsRecv (peer d k) (opp k)))
      + 1 * offs.countP (fun k => decide (g = barCell (peer d k))) := by
  unfold O₀ owesAt
  rw [Pi.add_apply, Finsupp.add_apply, Pi.add_apply, Finsupp.add_apply,
    show sumL offs (agT d) = sumL offs (fun k => tallyAt (agRecv (peer d k) (opp k)) () N) from rfl,
    show sumL offs (rsT d) = sumL offs (fun k => tallyAt (rsRecv (peer d k) (opp k)) () N) from rfl,
    show sumL offs (sigT d) = sumL offs (fun k => tallyAt (barCell (peer d k)) () 1) from rfl,
    sumL_tally, sumL_tally, sumL_tally]

theorem count_bar : ∀ c d : Dev nD, offs.countP (fun k => decide (c = peer d k)) = if d = c then 0 else 1 := by decide +kernel
theorem count_recv : ∀ (c d : Dev nD) (s : Fin 16), s ≠ 0 → offs.countP (fun k => decide (c = peer d k ∧ s = opp k)) = if d = peer c s then 1 else 0 := by
  decide +kernel
theorem sum_bar : ∀ c : Dev nD, (∑ d : Dev nD, if d = c then 0 else 1) = 15 := by decide +kernel

omit [FloatOps F] in
theorem owed_bar (d c : Dev nD) : O₀ d (barCell c) () = if d = c then 0 else 1 := by
  have h1 : offs.countP (fun k => decide (barCell c = agRecv (peer d k) (opp k))) = 0 :=
    List.countP_eq_zero.mpr fun k _ h => bar_ne_agRecv (of_decide_eq_true h)
  have h2 : offs.countP (fun k => decide (barCell c = rsRecv (peer d k) (opp k))) = 0 :=
    List.countP_eq_zero.mpr fun k _ h => bar_ne_rsRecv (of_decide_eq_true h)
  have h3 : offs.countP (fun k => decide (barCell c = barCell (peer d k))) = offs.countP (fun k => decide (c = peer d k)) :=
    List.countP_congr fun k _ => by rw [decide_eq_true_iff, decide_eq_true_iff, bar_eq_iff]
  rw [O₀_apply, h1, h2, h3, count_bar]
  simp only [Nat.mul_zero, Nat.zero_add, Nat.one_mul]

omit [FloatOps F] in
theorem owed_rsRecv (d c : Dev nD) {s : Fin 16} (hs : s ≠ 0) : O₀ d (rsRecv c s) () = if d = peer c s then N else 0 := by
  have h1 : offs.countP (fun k => decide (rsRecv c s = agRecv (peer d k) (opp k))) = 0 :=
    List.countP_eq_zero.mpr fun k _ h => rsRecv_ne_agRecv (of_decide_eq_true h)
  have h2 : offs.countP (fun k => decide (rsRecv c s = rsRecv (peer d k) (opp k))) = offs.countP (fun k => decide (c = peer d k ∧ s = opp k)) :=
    List.countP_congr fun k _ => by rw [decide_eq_true_iff, decide_eq_true_iff, rsRecv_eq_iff]
  have h3 : offs.countP (fun k => decide (rsRecv c s = barCell (peer d k))) = 0 :=
    List.countP_eq_zero.mpr fun k _ h => bar_ne_rsRecv (of_decide_eq_true h).symm
  rw [O₀_apply, h1, h2, h3, count_recv c d s hs]
  split <;> simp only [Nat.mul_zero, Nat.zero_add, Nat.add_zero, Nat.mul_one]

omit [FloatOps F] in
theorem owed_agRecv (d c : Dev nD) {s : Fin 16} (hs : s ≠ 0) : O₀ d (agRecv c s) () = if d = peer c s then N else 0 := by
  have h1 : offs.countP (fun k => decide (agRecv c s = agRecv (peer d k) (opp k))) = offs.countP (fun k => decide (c = peer d k ∧ s = opp k)) :=
    List.countP_congr fun k _ => by rw [decide_eq_true_iff, decide_eq_true_iff, agRecv_eq_iff]
  have h2 : offs.countP (fun k => decide (agRecv c s = rsRecv (peer d k) (opp k))) = 0 :=
    List.countP_eq_zero.mpr fun k _ h => rsRecv_ne_agRecv (of_decide_eq_true h).symm
  have h3 : offs.countP (fun k => decide (agRecv c s = barCell (peer d k))) = 0 :=
    List.countP_eq_zero.mpr fun k _ h => bar_ne_agRecv (of_decide_eq_true h).symm
  rw [O₀_apply, h1, h2, h3, count_recv c d s hs]
  split <;> simp only [Nat.mul_zero, Nat.zero_add, Nat.add_zero, Nat.mul_one]

omit [FloatOps F] in
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, sum_bar]

omit [FloatOps F] in
theorem launch_rsRecv (c : Dev nD) {s : Fin 16} (hs : s ≠ 0) :
    tallyOn (rsRecv c s) (launchCredit (Pipeline.owing O₀) 0 (rsRecv c s)) = (tallyAt (rsRecv c s) () N : CellTallies nD τ sig Unit) := by
  unfold tallyAt; refine congrArg _ (Finsupp.ext fun u => ?_); cases u
  rw [Pipeline.launchCredit_owing, Finsupp.single_eq_same, Finset.sum_congr rfl fun d _ => owed_rsRecv d c hs,
    Finset.sum_ite_eq' Finset.univ (peer c s) fun _ => N, if_pos (Finset.mem_univ _)]

omit [FloatOps F] in
theorem launch_agRecv (c : Dev nD) {s : Fin 16} (hs : s ≠ 0) :
    tallyOn (agRecv c s) (launchCredit (Pipeline.owing O₀) 0 (agRecv c s)) = (tallyAt (agRecv c s) () N : CellTallies nD τ sig Unit) := by
  unfold tallyAt; refine congrArg _ (Finsupp.ext fun u => ?_); cases u
  rw [Pipeline.launchCredit_owing, Finsupp.single_eq_same, Finset.sum_congr rfl fun d _ => owed_agRecv d c hs,
    Finset.sum_ite_eq' Finset.univ (peer c s) fun _ => N, if_pos (Finset.mem_univ _)]

def lc (g : GSem nD τ sig) : sProp 𝕄 := cred (tallyOn g (launchCredit (Pipeline.owing O₀) 0 g))

omit [FloatOps F] in
theorem launchCred_cells (c : Dev nD) : (Pipeline.launchCred O₀ c : sProp 𝕄) ⊢ bigSep Finset.univ fun k : CK => lc (F := F) (kcell (c, k)) := by
  have e : (bigSep (Finset.univ.map ⟨csem, csem_injective⟩) fun sm : SemLoc sig => lc (F := F) ((c : Thread nD τ), sm))
      = bigSep Finset.univ fun k : CK => lc (F := F) (kcell (c, k)) := by rw [bigSep_map]; rfl
  exact (show (Pipeline.launchCred O₀ c : sProp 𝕄) ⊢ bigSep (Finset.univ.map ⟨csem, csem_injective⟩) fun sm : SemLoc sig => lc (F := F) ((c : Thread nD τ), sm) from
    bigSep_subset (Finset.subset_univ _)).trans (Entails.of_eq e)

omit [FloatOps F] in
theorem recv_creds (c : Dev nD) :
    (bigSep Finset.univ fun s : Fin 16 => iprop(lc (F := F) (kcell (c, some (0, s))) ∗ lc (kcell (c, some (1, s))) ∗ lc (kcell (c, some (2, s))) ∗ lc (kcell (c, some (3, s)))))
      ⊢ bigSepL offs fun k => iprop(cred (tallyAt (rsRecv c (opp k)) () N) ∗ cred (tallyAt (agRecv c (opp k)) () N) : sProp 𝕄) := by
  have e : bigSep (Finset.univ.erase 0) (fun s : Fin 16 => iprop(cred (tallyAt (rsRecv c s) () N) ∗ cred (tallyAt (agRecv c s) () N) : sProp 𝕄))
      = bigSepL offs fun k => iprop(cred (tallyAt (rsRecv c (opp k)) () N) ∗ cred (tallyAt (agRecv c (opp k)) () N) : sProp 𝕄) := bigSep_slots_ne _
  rw [← e]
  refine (bigSep_subset (Finset.erase_subset (0 : Fin 16) Finset.univ)).trans (bigSep_mono fun s hs => ?_)
  have hs' : s ≠ 0 := (Finset.mem_erase.mp hs).1
  rw [← launch_rsRecv c hs', ← launch_agRecv c hs']
  show iprop(lc (F := F) (rsSend c s) ∗ lc (rsRecv c s) ∗ lc (agSend c s) ∗ lc (agRecv c s)) ⊢ iprop(lc (rsRecv c s) ∗ lc (agRecv c s))
  iintro ⟨-, H5, -, H7⟩
  isplitl [H5] <;> iassumption

omit [FloatOps F] in
theorem creds_intro (c : Dev nD) : (Pipeline.launchCred O₀ c : sProp 𝕄) ⊢ creds c := by
  refine (launchCred_cells c).trans ?_
  rw [bigSep_option, bigSep_arr_slot]
  unfold creds
  exact BIClass.sep_mono (Entails.of_eq (congrArg cred (launch_bar c))) (recv_creds c)

end Credit

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq, bigSep_arr_slot, bigSep_slots]
  unfold Φ₁ scr semK
  iintro ⟨Hr, Hz⟩
  isplitr; · iempintro
  isplitl [Hz]; · iexact Hz
  iexact Hr

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
theorem run_main (hbody : ∀ c, BodyObligation (dats (F := F) m ρ 0 c) (defs₀ (F := F)) 𝒱₀ () Set.univ) :
    θ_run defs (onTc (τ := τ) (main (F := F))) (Proto.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stageWaits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = (Proto.s₀ m ρ).mem (win0_0.arr.view.loc (c : Thread nD τ)) :=
  (dats (F := F) m ρ 0 c).arrAt_in (0 : Fin 2) rfl _

theorem after_out (c : Dev nD) : (dats (F := F) m ρ 0 c).after (1 : Fin 2) t₀ = outC m ρ c := by simp only [dats]

theorem arrAt_zero_out (c : Dev nD) :
    (dats (F := F) m ρ 0 c).arrAt (1 : Fin 2) (t₀ : Fin cfg0.N).val = (Proto.s₀ m ρ).mem ((cfg0.win (1 : Fin 2)).arr.view.loc (c : Thread nD τ)) := rfl

theorem finalA_out (c : Dev nD) :
    finalA m ρ c (1 : Fin 2)
      = ((cfg0.win (1 : Fin 2)).blk t₀).view.write (Elt F) ((Proto.s₀ m ρ).mem ((cfg0.win (1 : Fin 2)).arr.view.loc (c : Thread nD τ)))
          ((cfg0.win (1 : Fin 2)).cut (cfg0.grid.coords t₀) (outC m ρ c)) Finset.univ := by
  unfold finalA
  rw [show cfg0.N = (t₀ : Fin cfg0.N).val + 1 from rfl, (dats (F := F) m ρ 0 c).arrAt_succ (1 : Fin 2) t₀, flush0_1 t₀, if_pos rfl,
    arrAt_zero_out, ← after_out]

theorem finalA_out_read (c : Dev nD) :
    ((cfg0.win (1 : Fin 2)).blk t₀).view.read (Elt F) (finalA m ρ c (1 : Fin 2)) = (cfg0.win (1 : Fin 2)).cut (cfg0.grid.coords t₀) (outC m ρ c) := by
  rw [finalA_out, View.read_write_univ]

omit [FloatOps F] in
theorem read_blk_out (f : (main_v1 : Ref sig .tc).ty.Contents (Elt F)) :
    ((cfg0.win (1 : Fin 2)).blk t₀).view.read (Elt F) f = f := by
  have hz : (fun a => (win0_1.index t₀) a * (main_v1 : Ref sig .tc).ty.shape.size a) = fun _ => 0 := funext fun a => by fin_cases a <;> decide
  exact Memref.read_access_unit_zero (Elt F) main_v1 hz (fun a => by fin_cases a <;> decide) f

omit [FloatOps F] in
theorem cut_out (X : (cc0_stg1_0 : Ref sig .tc).ty.Contents (Elt F)) : (cfg0.win (1 : Fin 2)).cut (cfg0.grid.coords t₀) X = X := rfl

theorem finalA_out_eq (c : Dev nD) : finalA m ρ c (1 : Fin 2) = outC m ρ c := by
  have ho := finalA_out_read m ρ c
  rw [read_blk_out, cut_out] at ho
  exact ho

theorem run_values (hbody : ∀ c, BodyObligation (dats (F := F) m ρ 0 c) (defs₀ (F := F)) 𝒱₀ () Set.univ) :
    θ_run defs (onTc (τ := τ) (main (F := F))) (Proto.s₀ m ρ)
      (fun r => ∀ c : Dev nD, r.2.mem ((c.tc : Thread nD τ).loc main_v1) = outC m ρ c
        ∧ r.2.mem ((c.tc : Thread nD τ).loc main_arg0) = m ((c.tc : Thread nD τ).loc main_arg0)) :=
  (θ_run defs (onTc (τ := τ) (main (F := F))) (Proto.s₀ m ρ)).mono
    (fun r h c => ⟨(h c (1 : Fin 2)).trans (finalA_out_eq m ρ c), (h c (0 : Fin 2)).trans (finalA_x m ρ c)⟩) (run_main m ρ hbody)

/-- info: 'Cert.KernelIdeal.LaunchPf.run_main' depends on axioms: [propext, Classical.choice, Quot.sound] -/
#guard_msgs in #print axioms run_main

/-- info: 'Cert.KernelIdeal.LaunchPf.run_values' depends on axioms: [propext, Classical.choice, Quot.sound] -/
#guard_msgs in #print axioms run_values

end Cert.KernelIdeal.LaunchPf

end
-- ==== Proof.Steps.lean ====
import proofs.«901016_g7700000000001017_dist_rs_then_ag_i_m512_n512_v7x_i16_bf16_1_alg».proof.Proof.Proto

noncomputable section

namespace Cert.KernelIdeal.Steps

open Cert.KernelIdeal Cert.KernelIdeal.Gen Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem inv_at (K : Dev nD × CK → ℕ) (ck : Dev nD × CK) : records m ρ K ⊢ cellInv ER (Rd m ρ) (K ck) (kcell ck) := by
  unfold records; iintro ⟨H, -⟩
  iapply (show (bigSep Finset.univ fun ck : Dev nD × CK => (cellInv ER (Rd m ρ) (K ck) (kcell ck) : sProp 𝕄)) ⊢ cellInv ER (Rd m ρ) (K ck) (kcell ck)
    from bigSep_elim (Finset.mem_univ ck))
  iexact H
theorem reached_at (K : Dev nD × CK → ℕ) (ck : Dev nD × CK) : records m ρ K ⊢ (reached ER (kcell ck) 0 : sProp 𝕄) := by
  unfold records; iintro ⟨-, H⟩
  iapply (show (bigSep Finset.univ fun ck : Dev nD × CK => (reached ER (kcell ck) 0 : sProp 𝕄)) ⊢ reached ER (kcell ck) 0
    from bigSep_elim (Finset.mem_univ ck))
  iexact H

/-- The barrier signal to a peer pays that peer's duty with this device's two landing slots for it. -/
theorem step_signal (K : Dev nD × CK → ℕ) (c : Dev nD) (k : Fin 16) (hk : k ≠ 0) (s : Fin 16) (hs : opp k = s) (n : Dev nD) (hn : n = peer c k)
    (f1 : Buf (Elt F) ((slotOf rsM k).view.loc (c : Thread nD τ))) (f2 : Buf (Elt F) ((slotOf agM k).view.loc (c : Thread nD τ)))
    (O : CellTallies nD τ sig Unit) (W : Waits sig Unit)
    {α : Type} {Q : α → sProp 𝕄} {kont : PUnit → Prog (TpuEff nD τ sig (Elt F) Λ₀ .tc) α} :
    iprop(records m ρ K ∗ owes (c : Thread nD τ) (O + sigT c k) W ∗ dutyTok ER (barCell (peer c k)) 0 s
        ∗ slotPts rsM c k f1 ∗ slotPts agM c k f2)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (Dev.tc n : Thread nD τ) barS 1) kont) Q) := by
  subst hn; subst hs
  iintro ⟨#HR, HO, Ht, H1, H2⟩
  iapply (Rounds.wp_signal 𝒱₀ ER (Rd m ρ) (c : Thread nD τ) none (dst := (peer c k : Thread nD τ)) (κ := K (peer c k, none))
      (d := opp k) (by rw [duties_bar]; exact Finset.mem_erase.mpr ⟨opp_ne_zero hk, Finset.mem_univ _⟩) (amount_bar m ρ (peer c k) (opp k)) () O rfl) $$ [HO Ht H1 H2]
  · isplitr; · iapply (inv_at m ρ K (peer c k, none)); iexact HR
    isplitl [HO]; · iexact HO
    isplitl [Ht]; · iexact Ht
    isplitl [H1 H2]
    · rw [payload_bar]; unfold barPay; rw [peer_opp, opp_opp]
      isplitl [H1]; · iexists f1; iexact H1
      iexists f2; iexact H2
    · iapply (reached_at m ρ K (peer c k, none)); iexact HR

/-- Fifteen units on the own barrier: every peer's landing slots for this device have arrived. -/
theorem step_barwait (K : Dev nD × CK → ℕ) (c : Dev nD) (O : CellTallies nD τ sig Unit) (W : Waits sig Unit)
    {α : Type} {Q : α → sProp 𝕄} {kont : PUnit → Prog (TpuEff nD τ sig (Elt F) Λ₀ .tc) α} :
    iprop(records m ρ K ∗ cred (tallyAt (barCell c) () 15) ∗ owes (c : Thread nD τ) O W ∗ MayWait (c : Thread nD τ) (.reg barS) () O
        ∗ atPos ER (barCell c) 0 ∅ 0)
      ⊢ iprop(((owes (c : Thread nD τ) O (insert (SemLoc.reg barS, ()) W) ∗ atPos ER (barCell c) 1 ∅ 0
              ∗ bigSepL offs (fun d => (barPay c d : sProp 𝕄)))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS 15) kont) Q) := by
  iintro ⟨#HR, Hc, HO, Hmw, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Hmw Hat]
  · isplitr; · iapply (inv_at m ρ K (c, none)); iexact HR
    isplitl [Hc]; · iexact Hc
    isplitl [HO]; · iexact HO
    isplitl [Hmw]; · iexact Hmw
    iexact Hat
  iintro ⟨HO, Hat, -, Hpay⟩
  iapply Hk
  isplitl [HO]; · iexact HO
  isplitl [Hat]; · iexact Hat
  ihave Hp := (Entails.of_eq ((rest_bar m ρ c).trans (bigSep_eq_bigSepL_of_eq offs (by decide) (by decide) _))) $$ Hpay
  iexact Hp

/-- A reduce-scatter copy pays the sender's send cell and the peer's receive cell, the latter with the rows it lands. -/
theorem step_rsSend (K : Dev nD × CK → ℕ) (c : Dev nD) (k : Fin 16) (hk : k ≠ 0) (s : Fin 16) (hs : opp k = s) (n : Dev nD) (hn : n = peer c k)
    (hrw : ∀ (fd : Buf (Elt F) ((slotOf rsM s).view.loc (peer c k : Thread nD τ))) (X : Vec F S32x512 .bf16),
      (slotOf rsM s).view.read (Elt F) ((slotOf rsM s).view.write (Elt F) fd X Finset.univ) = X)
    (fd : Buf (Elt F) ((slotOf rsM s).view.loc (peer c k : Thread nD τ))) (O : CellTallies nD τ sig Unit) (W : Waits sig Unit)
    {hsc : (slotOf rsM s : Memref sig (Dev.tc n : Thread nD τ).2.kind .vmem S32x512 .bf16).view.ref.isScScratch = false}
    {hsrc : (srcSl c k).view.WordExact} {hdst : (slotOf rsM s).view.WordExact}
    {hsem : DmaTarget.Typed .vmem (.dma (semAt cc0_scratch5 s)) (.remote (Dev.tc n : Thread nD τ) (slotOf rsM s) (.dma (semAt cc0_scratch4 s)) hsc)}
    {α : Type} {Q : α → sProp 𝕄} {kont : PUnit → Prog (TpuEff nD τ sig (Elt F) Λ₀ .tc) α} :
    iprop(records m ρ K ∗ ((srcSl c k).view.loc (c : Thread nD τ) ↦[(srcSl c k).view.set]{fullShare} xbAt m ρ c k)
        ∗ slotPts rsM (peer c k) s fd ∗ owes (c : Thread nD τ) (O + rsT c k) W
        ∗ dutyTok ER (rsSend c s) 0 0 ∗ dutyTok ER (rsRecv (peer c k) s) 0 0)
      ⊢ iprop(((cred (tallyAt (rsSend c s) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (srcSl c k) (.remote (Dev.tc n : Thread nD τ) (slotOf rsM s) (.dma (semAt cc0_scratch4 s)) hsc)
                (.dma (semAt cc0_scratch5 s)) hsrc hdst hsem) kont) Q) := by
  subst hn; subst hs
  iintro ⟨#HR, Hsrc, Hdst, HO, Ht1, Ht2⟩
  unfold slotPts
  iapply (Rounds.wp_send_pointsTo 𝒱₀ ER (Rd m ρ) (c : Thread nD τ) none (κ₁ := K (c, some (0, opp k))) (κ₂ := K (peer c k, some (1, opp k)))
    (r₁ := 0) (r₂ := 0) (d₁ := 0) (d₂ := 0) (fd := fd)
    (by rw [duties_rsSend m ρ c (opp_ne_zero hk)]; exact Finset.mem_singleton_self _)
    (by rw [duties_rsRecv m ρ (peer c k) (opp_ne_zero hk)]; exact Finset.mem_singleton_self _)
    () () N rfl (amount_dma m ρ c _ 0) (amount_dma m ρ (peer c k) _ 0) O rfl (W := W)
    (by rw [payload_rsSend]; unfold rsSendPay; rw [opp_opp])
    (by
      rw [payload_rsRecv]; unfold rsRecvPay slotPts got chunk; rw [peer_opp, opp_opp]
      iintro H; iexists _; isplitl [H]; · iexact H
      ipureintro; exact hrw _ _)) $$ [Hsrc Hdst HO Ht1 Ht2]
  isplitr; · iapply (inv_at m ρ K (c, some (0, opp k))); iexact HR
  isplitr; · iapply (inv_at m ρ K (peer c k, some (1, opp k))); iexact HR
  isplitl [Hsrc]; · iexact Hsrc
  isplitl [Hdst]; · iexact Hdst
  isplitl [HO]; · iexact HO
  isplitl [Ht1]; · iexact Ht1
  isplitr; · iapply (reached_at m ρ K (c, some (0, opp k))); iexact HR
  isplitl [Ht2]; · iexact Ht2
  iapply (reached_at m ρ K (peer c k, some (1, opp k))); iexact HR

/-- An all-gather copy does the same from one share of the reduced block. -/
theorem step_agSend (K : Dev nD × CK → ℕ) (c : Dev nD) (k : Fin 16) (hk : k ≠ 0) (s : Fin 16) (hs : opp k = s) (n : Dev nD) (hn : n = peer c k)
    (hrw : ∀ (fd : Buf (Elt F) ((slotOf agM s).view.loc (peer c k : Thread nD τ))) (X : Vec F S32x512 .bf16),
      (slotOf agM s).view.read (Elt F) ((slotOf agM s).view.write (Elt F) fd X Finset.univ) = X)
    (j : ℕ) (hj : posOf s = j)
    (fd : Buf (Elt F) ((slotOf agM s).view.loc (peer c k : Thread nD τ))) (O : CellTallies nD τ sig Unit) (W : Waits sig Unit)
    {hsc : (slotOf agM s : Memref sig (Dev.tc n : Thread nD τ).2.kind .vmem S32x512 .bf16).view.ref.isScScratch = false}
    {hsrc : agsM.view.WordExact} {hdst : (slotOf agM s).view.WordExact}
    {hsem : DmaTarget.Typed .vmem (.dma (semAt cc0_scratch7 s)) (.remote (Dev.tc n : Thread nD τ) (slotOf agM s) (.dma (semAt cc0_scratch6 s)) hsc)}
    {α : Type} {Q : α → sProp 𝕄} {kont : PUnit → Prog (TpuEff nD τ sig (Elt F) Λ₀ .tc) α} :
    iprop(records m ρ K ∗ (agsM.view.loc (c : Thread nD τ) ↦[agsM.view.set]{pieceSh j} redAt m ρ c)
        ∗ slotPts agM (peer c k) s fd ∗ owes (c : Thread nD τ) (O + agT c k) W
        ∗ dutyTok ER (agSend c s) 0 0 ∗ dutyTok ER (agRecv (peer c k) s) 0 0)
      ⊢ iprop(((cred (tallyAt (agSend c s) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma agsM (.remote (Dev.tc n : Thread nD τ) (slotOf agM s) (.dma (semAt cc0_scratch6 s)) hsc)
                (.dma (semAt cc0_scratch7 s)) hsrc hdst hsem) kont) Q) := by
  subst hn; subst hs; subst hj
  iintro ⟨#HR, Hsrc, Hdst, HO, Ht1, Ht2⟩
  unfold slotPts
  iapply (Rounds.wp_send_pointsTo 𝒱₀ ER (Rd m ρ) (c : Thread nD τ) none (κ₁ := K (c, some (2, opp k))) (κ₂ := K (peer c k, some (3, opp k)))
    (r₁ := 0) (r₂ := 0) (d₁ := 0) (d₂ := 0) (fd := fd)
    (by rw [duties_agSend m ρ c (opp_ne_zero hk)]; exact Finset.mem_singleton_self _)
    (by rw [duties_agRecv m ρ (peer c k) (opp_ne_zero hk)]; exact Finset.mem_singleton_self _)
    () () N rfl (amount_dma m ρ c _ 0) (amount_dma m ρ (peer c k) _ 0) O rfl (W := W)
    (by rw [payload_agSend]; exact BI.Entails.refl _)
    (by
      rw [payload_agRecv]; unfold agRecvPay slotPts; rw [peer_opp]
      iintro H; iexists _; isplitl [H]; · iexact H
      ipureintro; exact hrw _ _)) $$ [Hsrc Hdst HO Ht1 Ht2]
  isplitr; · iapply (inv_at m ρ K (c, some (2, opp k))); iexact HR
  isplitr; · iapply (inv_at m ρ K (peer c k, some (3, opp k))); iexact HR
  isplitl [Hsrc]; · iexact Hsrc
  isplitl [Hdst]; · iexact Hdst
  isplitl [HO]; · iexact HO
  isplitl [Ht1]; · iexact Ht1
  isplitr; · iapply (reached_at m ρ K (c, some (2, opp k))); iexact HR
  isplitl [Ht2]; · iexact Ht2
  iapply (reached_at m ρ K (peer c k, some (3, opp k))); iexact HR

/-- A transfer cell has one round of one duty, so a wait for its amount returns the payload and the counter is back at zero. -/
theorem step_dmaWait (K : Dev nD × CK → ℕ) (c : Dev nD) (a : Fin 4) (s : Fin 16) (O : CellTallies nD τ sig Unit) (W : Waits sig Unit)
    (hexp : (Rd m ρ).expect (((c : Thread nD τ), SemLoc.dma (semAt (arrOf a) s))) 0 = N) (hdut : (Rd m ρ).duties (((c : Thread nD τ), SemLoc.dma (semAt (arrOf a) s))) 0 = {0})
    {sp sp' : Space} {s1 s2 : Shape} {e1 e2 : EltTy} {src : Memref sig .tc sp' s2 e2} {κ' : Kind} {dst : Memref sig κ' sp s1 e1}
    {h1 : src.view.WordExact} {h2 : dst.view.WordExact} (hN : dst.view.dmaCredit = N)
    {α : Type} {Q : α → sProp 𝕄} {kont : PUnit → Prog (TpuEff nD τ sig (Elt F) Λ₀ .tc) α} :
    iprop(records m ρ K ∗ cred (tallyAt (((c : Thread nD τ), SemLoc.dma (semAt (arrOf a) s))) () N) ∗ owes (c : Thread nD τ) O W
        ∗ MayWait (c : Thread nD τ) (.dma (semAt (arrOf a) s)) () O ∗ atPos ER (((c : Thread nD τ), SemLoc.dma (semAt (arrOf a) s))) 0 ∅ 0)
      ⊢ iprop(((owes (c : Thread nD τ) O (insert (SemLoc.dma (semAt (arrOf a) s), ()) W) ∗ semVal (((c : Thread nD τ), SemLoc.dma (semAt (arrOf a) s))) 0
              ∗ (Rd m ρ).payload (((c : Thread nD τ), SemLoc.dma (semAt (arrOf a) s))) 0 0)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (semAt (arrOf a) s) src dst h1 h2) kont) Q) := by
  iintro ⟨#HR, Hc, HO, Hmw, Hat⟩ Hk
  ihave Hc' := (Entails.of_eq (show (cred (tallyAt (((c : Thread nD τ), SemLoc.dma (semAt (arrOf a) s))) () N) : sProp 𝕄) = cred (tallyAt ((c : Thread nD τ), .dma (semAt (arrOf a) s)) () dst.view.dmaCredit) by rw [hN])) $$ Hc
  iapply (Rounds.wp_wait_rest_token 𝒱₀ ER (Rd m ρ) (c : Thread nD τ) none (κ := K (c, some (a, s)))
      (wpE_waitDma2_eq 𝒱₀ (c : Thread nD τ) none Set.univ) (Set.mem_univ _) () (O := O) (W := W) (R := 0) (m := 0) (T := ∅)
      (by rw [Nat.zero_add, hN]; exact hexp.symm)) $$ [Hc' HO Hmw Hat]
  · isplitr; · iapply (inv_at m ρ K (c, some (a, s))); iexact HR
    isplitl [Hc']; · iexact Hc'
    isplitl [HO]; · iexact HO
    isplitl [Hmw]; · iexact Hmw
    iexact Hat
  iintro ⟨HO, Hat, -, Hpay⟩
  ihave Hp := (Entails.of_eq (show bigSep ((Rd m ρ).duties (((c : Thread nD τ), SemLoc.dma (semAt (arrOf a) s))) 0 \ ∅) (fun d => (Rd m ρ).payload (((c : Thread nD τ), SemLoc.dma (semAt (arrOf a) s))) 0 d)
      = (Rd m ρ).payload (((c : Thread nD τ), SemLoc.dma (semAt (arrOf a) s))) 0 0 by rw [Finset.sdiff_empty, hdut, bigSep_singleton])) $$ Hpay
  imod (Rounds.cell_close ER (Rd m ρ) (Set.mem_univ (K (c, some (a, s)))) (fun h => h) (R := 0 + 1) (duties_later m ρ (((c : Thread nD τ), SemLoc.dma (semAt (arrOf a) s))))) $$ [Hat] with Hz
  · isplitr; · iapply (inv_at m ρ K (c, some (a, s))); iexact HR
    iexact Hat
  iapply Hk
  isplitl [HO]; · iexact HO
  isplitl [Hz]; · iexact Hz
  iexact Hp

end Cert.KernelIdeal.Steps

end
-- ==== Proof.BodyDefs.lean ====
import proofs.«901016_g7700000000001017_dist_rs_then_ag_i_m512_n512_v7x_i16_bf16_1_alg».proof.Proof.Steps

noncomputable section

namespace Cert.KernelIdeal.Body

open Cert.KernelIdeal Cert.KernelIdeal.Gen Cert.KernelIdeal.Proto Cert.KernelIdeal.Steps
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body's precondition with the cells' invariant names opened. -/
def bodyPreK (K : Dev nD × CK → ℕ) (c : Dev nD) : sProp 𝕄 :=
  iprop(((ghost m ρ K c ∗ creds c ∗ levAts L lv) ∗ scr c) ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

omit [FloatOps F] in
theorem sepL (A B : sProp 𝕄) : BI.sep A B = iprop(A ∗ B) := rfl

theorem peel_sig (c : Dev nD) (k : Fin 16) (ls lr la : List (Fin 16)) : owesAt c (k :: ls) lr la = owesAt c ls lr la + sigT c k := by
  unfold owesAt; rw [sumL_cons]; ac_rfl
theorem peel_rs (c : Dev nD) (k : Fin 16) (lr la : List (Fin 16)) : owesAt c [] (k :: lr) la = owesAt c [] lr la + rsT c k := by
  unfold owesAt; rw [sumL_cons]; ac_rfl
theorem peel_ag (c : Dev nD) (k : Fin 16) (la : List (Fin 16)) : owesAt c [] [] (k :: la) = owesAt c [] [] la + agT c k := by
  unfold owesAt; rw [sumL_cons]; ac_rfl

def slots16 : List (Fin 16) := [0, 1, 2, 3, 4, 5, 6, 7, 8, 9, 10, 11, 12, 13, 14, 15]

structure ViewFacts : Prop where
  rw_slot : ∀ (B : Memref sig .tc .vmem S16x32x512 .bf16) (s : Fin 16) (c' : Dev nD) (fd : Buf (Elt F) ((slotOf B s).view.loc (c' : Thread nD τ))) (X : Vec F S32x512 .bf16),
    (slotOf B s).view.read (Elt F) ((slotOf B s).view.write (Elt F) fd X Finset.univ) = X
  split_rs : ∀ (c : Dev nD) (f : Buf (Elt F) ((c : Thread nD τ).loc cc0_scratch2)),
    (((c : Thread nD τ).loc cc0_scratch2) ↦{fullShare} f : sProp 𝕄) ⊢ bigSepL slots16 (fun s => iprop(∃ f', slotPts (F := F) rsM c s f'))
  split_ag : ∀ (c : Dev nD) (f : Buf (Elt F) ((c : Thread nD τ).loc cc0_scratch3)),
    (((c : Thread nD τ).loc cc0_scratch3) ↦{fullShare} f : sProp 𝕄) ⊢ bigSepL slots16 (fun s => iprop(∃ f', slotPts (F := F) agM c s f'))

structure MoreFacts where
  xbOwn : Dev nD → sProp 𝕄
  xb_split : ∀ c : Dev nD, (((c : Thread nD τ).loc cc0_scratch0) ↦{fullShare} xbC m ρ c : sProp 𝕄)
    ⊢ iprop(xbOwn c ∗ bigSepL offs (fun k => ((srcSl c k).view.loc (c : Thread nD τ) ↦[(srcSl c k).view.set]{fullShare} xbAt m ρ c k : sProp 𝕄)))
  xb_join : ∀ c : Dev nD, iprop(xbOwn c ∗ bigSepL offs (fun k => ((srcSl c k).view.loc (c : Thread nD τ) ↦[(srcSl c k).view.set]{fullShare} xbAt m ρ c k : sProp 𝕄)))
    ⊢ iprop(∃ f : Buf (Elt F) ((c : Thread nD τ).loc cc0_scratch0), ((c : Thread nD τ).loc cc0_scratch0) ↦{fullShare} f)
  load_sub : ∀ (B : Memref sig .tc .vmem S16x32x512 .bf16) (s : Fin 16),
    B.view.setOn (Rect.unit (s := S16x32x512) ![s.val, 0, 0] S1x32x512.size (inb_slot s)).toLoadRect.set ⊆ (slotOf B s).view.set
  load_slot : ∀ (B : Memref sig .tc .vmem S16x32x512 .bf16) (s : Fin 16) (f : B.view.ty.Contents (Elt F)),
    B.view.readAt (Elt F) (Rect.unit (s := S16x32x512) ![s.val, 0, 0] S1x32x512.size (inb_slot s)).toLoadRect f = unsq ((slotOf B s).view.read (Elt F) f)
  ags_split : ∀ c : Dev nD, (((c : Thread nD τ).loc cc0_scratch1) ↦{fullShare} redC m ρ c : sProp 𝕄)
    ⊢ iprop(bigSepL ([0, 1, 2, 3, 4, 5, 6, 7, 8, 9, 10, 11, 12, 13, 14] : List ℕ) (fun j => (agsM.view.loc (c : Thread nD τ) ↦[agsM.view.set]{pieceSh j} redAt m ρ c : sProp 𝕄))
        ∗ (agsM.view.loc (c : Thread nD τ) ↦[agsM.view.set]{remSh 15} redAt m ρ c))
  ags_join : ∀ c : Dev nD, iprop(bigSepL ([0, 1, 2, 3, 4, 5, 6, 7, 8, 9, 10, 11, 12, 13, 14] : List ℕ) (fun j => (agsM.view.loc (c : Thread nD τ) ↦[agsM.view.set]{pieceSh j} redAt m ρ c : sProp 𝕄))
        ∗ (agsM.view.loc (c : Thread nD τ) ↦[agsM.view.set]{remSh 15} redAt m ρ c))
    ⊢ iprop(∃ f : Buf (Elt F) ((c : Thread nD τ).loc cc0_scratch1), ((c : Thread nD τ).loc cc0_scratch1) ↦{fullShare} f)
  rs_join : ∀ c : Dev nD, bigSepL slots16 (fun s => iprop(∃ f', slotPts (F := F) rsM c s f'))
    ⊢ iprop(∃ f : Buf (Elt F) ((c : Thread nD τ).loc cc0_scratch2), ((c : Thread nD τ).loc cc0_scratch2) ↦{fullShare} f)
  ag_join : ∀ c : Dev nD, bigSepL slots16 (fun s => iprop(∃ f', slotPts (F := F) agM c s f'))
    ⊢ iprop(∃ f : Buf (Elt F) ((c : Thread nD τ).loc cc0_scratch3), ((c : Thread nD τ).loc cc0_scratch3) ↦{fullShare} f)
  out_base : ∀ (c : Dev nD) (g1 : (cc0_stg1_0 : Ref sig .tc).ty.Contents (Elt F)),
    outAfter m ρ c (offs.map opp) (putRows (k0_off2 c) (k0_off2_inb c) g1 (k0_pay10 (reduced m ρ c))) = outC m ρ c

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) :
    xM.view.readAt (Elt F) (Rect.unit (s := S512x512) ![0, 0] S512x512.size inb_S512x512_S512x512_0_0).toLoadRect f = f :=
  Memref.readAt_unit_zero (Elt F) cc0_stg0_0 hz2 _ f
omit [FloatOps F] in
theorem write_xb (f w : (cc0_scratch0 : Ref sig .tc).ty.Contents (Elt F)) :
    ((xbM.access (Rect.unit (s := S512x512) ![0, 0] S512x512.size inb_S512x512_S512x512_0_0) : View sig .tc _ _ _).write (Elt F) f w Finset.univ) = w :=
  Memref.write_access_unit_zero_univ (Elt F) cc0_scratch0 hz2 _ f w
omit [FloatOps F] in
theorem write_ags (f w : (cc0_scratch1 : Ref sig .tc).ty.Contents (Elt F)) :
    ((agsM.access (Rect.unit (s := S32x512) ![0, 0] S32x512.size inb_S32x512_S32x512_0_0) : View sig .tc _ _ _).write (Elt F) f w Finset.univ) = w :=
  Memref.write_access_unit_zero_univ (Elt F) cc0_scratch1 hz2 _ f w

end Cert.KernelIdeal.Body

end
-- ==== Proof.Oblig.lean ====
import proofs.«901016_g7700000000001017_dist_rs_then_ag_i_m512_n512_v7x_i16_bf16_1_alg».proof.Proof.BodyDefs

noncomputable section

namespace Cert.KernelIdeal.Oblig

open Cert.KernelIdeal Cert.KernelIdeal.Gen Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem phi_pre (c : Dev nD) : (dats m ρ 0 c).Φ t₀.castSucc = Φ₀ m ρ c := rfl
theorem phi_post (c : Dev nD) : (dats m ρ 0 c).Φ t₀.succ = Φ₁ c := rfl
theorem after_x (c : Dev nD) : (dats m ρ 0 c).after 0 t₀ = xC m ρ c := rfl
theorem after_out (c : Dev nD) : (dats m ρ 0 c).after 1 t₀ = outC m ρ c := by dsimp only [dats]

theorem stage_x : (win0_0.stage (cfg0.slots t₀ 0) : Memref sig .tc .vmem S512x512 .f32) = xM := rfl
theorem stage_out : (win0_1.stage (cfg0.slots t₀ 1) : Memref sig .tc .vmem S512x512 .f32) = oM := rfl

theorem body_at : defs₀ (F := F) Proc.tc 0 (t₀, cfg0.slots t₀)
    = cc0_body xM (Memref.isWhole_whole _) oM (Memref.isWhole_whole _) xbM (Memref.isWhole_whole _) agsM (Memref.isWhole_whole _)
        rsM (Memref.isWhole_whole _) agM (Memref.isWhole_whole _) cc0_scratch4 cc0_scratch5 cc0_scratch6 cc0_scratch7 := by
  show bodyAt0 (F := F) t₀ = _
  unfold bodyAt0
  simp only [stage_x, stage_out]

set_option maxRecDepth 4000 in
theorem body_obligation
    (hsb : ∀ (K : Dev nD × CK → ℕ) (c : Dev nD) (Kt : PUnit → sProp 𝕄),
      iprop(Body.bodyPreK m ρ K c ∗ (bodyPost m ρ c -∗ Kt ⟨⟩))
        ⊢ wp frame (wpE (defs₀ (F := F)) 𝒱₀ (c : Thread nD τ) none) Set.univ
            (cc0_body xM (Memref.isWhole_whole _) oM (Memref.isWhole_whole _) xbM (Memref.isWhole_whole _) agsM (Memref.isWhole_whole _)
              rsM (Memref.isWhole_whole _) agM (Memref.isWhole_whole _) cc0_scratch4 cc0_scratch5 cc0_scratch6 cc0_scratch7) Kt)
    (c : Dev nD) : BodyObligation (dats (F := F) m ρ 0 c) (defs₀ (F := F)) 𝒱₀ () Set.univ := fun t => by
  rw [fin_N t]
  rw [bigSep_W0, bigSep_W0]
  simp only [owns_whole_eq]
  rw [phi_pre, phi_post, after_x, after_out, body_at]
  unfold Φ₀ start
  iintro ⟨⟨⟨⟨%K, Hg⟩, Hrest⟩, Hscr⟩, Ho, Hx, Hout⟩
  iapply (hsb K c _)
  unfold Body.bodyPreK
  isplitr []
  · isplitl [Hg Hrest Hscr]
    · isplitl [Hg Hrest]
      · isplitl [Hg]; · iexact Hg
        iexact Hrest
      · iexact Hscr
    isplitl [Ho]; · iexact Ho
    isplitl [Hx] <;> iassumption
  · unfold bodyPost; iintro H; iexact H

end Cert.KernelIdeal.Oblig

end
-- ==== Proof.Assemble.lean ====
import proofs.«901016_g7700000000001017_dist_rs_then_ag_i_m512_n512_v7x_i16_bf16_1_alg».proof.Proof.Launch
import proofs.«901016_g7700000000001017_dist_rs_then_ag_i_m512_n512_v7x_i16_bf16_1_alg».proof.Proof.Oblig

noncomputable section

namespace Cert.KernelIdeal.Assemble

open Cert.KernelIdeal Cert.KernelIdeal.Gen Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def BodySound : Prop :=
  ∀ (m : (ℓ : Loc nD τ sig) → Buf (Elt F) ℓ) (ρ : Dev nD → PrngReg) (K : Dev nD × CK → ℕ) (c : Dev nD) (Kt : PUnit → sProp 𝕄),
    iprop(Body.bodyPreK m ρ K c ∗ (bodyPost m ρ c -∗ Kt ⟨⟩))
      ⊢ wp frame (wpE (defs₀ (F := F)) 𝒱₀ (c : Thread nD τ) none) Set.univ
          (cc0_body xM (Memref.isWhole_whole _) oM (Memref.isWhole_whole _) xbM (Memref.isWhole_whole _) agsM (Memref.isWhole_whole _)
            rsM (Memref.isWhole_whole _) agM (Memref.isWhole_whole _) cc0_scratch4 cc0_scratch5 cc0_scratch6 cc0_scratch7) Kt

variable (m : (ℓ : Loc nD τ sig) → Buf (Elt F) ℓ) (ρ : Dev nD → PrngReg)

def Post : PUnit × MemSt nD τ sig (Elt F) → Prop := fun r =>
  ∀ c : Dev nD, r.2.mem ((c.tc : Thread nD τ).loc main_v1) = outC m ρ c
    ∧ r.2.mem ((c.tc : Thread nD τ).loc main_arg0) = m ((c.tc : Thread nD τ).loc main_arg0)

theorem run (hsb : BodySound (F := F)) :
    θ_run defs (onTc (τ := τ) (main (F := F))) ⟨m, fun _ => 0, ρ⟩ (Post m ρ) :=
  LaunchPf.run_values m ρ fun c => Oblig.body_obligation m ρ (hsb m ρ) c

theorem frame (hsb : BodySound (F := F)) :
    θ_run defs (onTc (τ := τ) (main (F := F))) ⟨m, fun _ => 0, ρ⟩
      (fun r => ∀ c : Dev nD, r.2.mem ((c.tc : Thread nD τ).loc main_arg0) = m ((c.tc : Thread nD τ).loc main_arg0)) :=
  (θ_run defs _ _).mono (fun _ h c => (h c).2) (run m ρ hsb)

end Cert.KernelIdeal.Assemble

end
-- ==== Proof.Views.lean ====
import proofs.«901016_g7700000000001017_dist_rs_then_ag_i_m512_n512_v7x_i16_bf16_1_alg».proof.Proof.Proto
import Idealize.ShloMosaic.Lib.Pipeline.Value
import Idealize.ShloMosaic.Lib.ValueIdx
import Idealize.ShloMosaic.Lib.ValueLayout

noncomputable section

namespace Cert.KernelIdeal.Views

open Cert.KernelIdeal Cert.KernelIdeal.Gen Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

theorem read_write_slot (B : Memref sig .tc .vmem S16x32x512 .bf16) (s : Fin 16) (c' : Dev nD)
    (fd : Buf (Elt F) ((slotOf B s).view.loc (c' : Thread nD τ))) (X : Vec F S32x512 .bf16) :
    (slotOf B s).view.read (Elt F) ((slotOf B s).view.write (Elt F) fd X Finset.univ) = X :=
  View.read_write_univ _ _

theorem shapeCasts_S32x512_S1x32x512 : S32x512.ShapeCasts S1x32x512 := by decide

theorem load_slotOf (B : Memref sig .tc .vmem S16x32x512 .bf16) (s : Fin 16) (f : B.view.ty.Contents (Elt F)) :
    B.view.readAt (Elt F) (Rect.unit (s := S16x32x512) ![s.val, 0, 0] S1x32x512.size (inb_slot s)).toLoadRect f
      = unsq ((slotOf B s).view.read (Elt F) f) :=
  (shapeCast_shapeCast (B.view.readAt (Elt F) (Rect.unit (s := S16x32x512) ![s.val, 0, 0] S1x32x512.size (inb_slot s)).toLoadRect f)
    shapeCasts_S1x32x512_S32x512 shapeCasts_S32x512_S1x32x512).symm

variable (m : (ℓ : Loc nD τ sig) → Buf (Elt F) ℓ) (ρ : Dev nD → PrngReg)

def pcOf (c : Dev nD) (s : Fin 16) : View.Piece (Elt F) S512x512 .f32 :=
  ⟨Rect.unit (s := S512x512) (outOff c s) S32x512.size (k0_off3_inb c (pred15 s)), k0_pay11 (unsq (gotAg m ρ c s))⟩

def pcOwn (c : Dev nD) : View.Piece (Elt F) S512x512 .f32 :=
  ⟨Rect.unit (s := S512x512) (k0_off2 c) S32x512.size (k0_off2_inb c), k0_pay10 (reduced m ρ c)⟩

def pcsAll (c : Dev nD) : List (View.Piece (Elt F) S512x512 .f32) :=
  ((offs.map opp).map (pcOf m ρ c)).reverse ++ [pcOwn m ρ c]

theorem outAfter_eq_writes (c : Dev nD) (l : List (Fin 16)) (base : (cc0_stg1_0 : Ref sig .tc).ty.Contents (Elt F)) :
    outAfter m ρ c l base = (oM : Memref sig .tc .vmem S512x512 .f32).view.writes (Elt F) base ((l.map (pcOf m ρ c)).reverse) := by
  induction l generalizing base with
  | nil => rfl
  | cons s l ih =>
    rw [List.map_cons, List.reverse_cons, View.writes_append]
    exact ih _

theorem outAfter_own_eq_writes (c : Dev nD) (g : (cc0_stg1_0 : Ref sig .tc).ty.Contents (Elt F)) :
    outAfter m ρ c (offs.map opp) (putRows (k0_off2 c) (k0_off2_inb c) g (k0_pay10 (reduced m ρ c)))
      = (oM : Memref sig .tc .vmem S512x512 .f32).view.writes (Elt F) g (pcsAll m ρ c) := by
  rw [outAfter_eq_writes, pcsAll, View.writes_append]; rfl

theorem mem_rows_iff {off : Fin 2 → Nat} {h : ∀ a, off a + S32x512.size a ≤ S512x512.size a} {b : Nat}
    (hoff : off = ![32 * b, 0]) (y : S512x512.Idx) :
    y ∈ (Rect.unit (s := S512x512) off S32x512.size h).set ↔ (y 0).val / 32 = b := by
  subst hoff
  rw [Rect.mem_set_unit]
  have h1 : (y 1).val < 512 := (y 1).isLt
  constructor
  · intro hy
    have h0 := hy 0
    have e0 : (![32 * b, 0] : Fin 2 → Nat) 0 = 32 * b := rfl
    have s0 : S32x512.size 0 = 32 := rfl
    rw [e0, s0] at h0
    omega
  · intro hb a
    match a with
    | ⟨0, _⟩ =>
      show 32 * b ≤ (y 0).val ∧ (y 0).val < 32 * b + 32
      omega
    | ⟨1, _⟩ =>
      show 0 ≤ (y 1).val ∧ (y 1).val < 0 + 512
      omega

theorem outOff_eq (c : Dev nD) {s : Fin 16} (hs : s ≠ 0) : outOff c s = ![32 * (peer c s).val, 0] := by
  have hpos : 0 < s.val := Nat.pos_of_ne_zero fun h => hs (Fin.ext h)
  have e : 1 + (pred15 s).val = s.val := by show 1 + (s.val - 1) = s.val; omega
  show k0_off3 c (BitVec.ofNat 32 (1 + (pred15 s).val)) = _
  rw [e]; exact off3_eq c s

theorem mem_pcOf_iff (c : Dev nD) {s : Fin 16} (hs : s ≠ 0) (y : S512x512.Idx) :
    y ∈ (pcOf m ρ c s).1.set ↔ (y 0).val / 32 = (peer c s).val :=
  mem_rows_iff (h := k0_off3_inb c (pred15 s)) (outOff_eq c hs) y

theorem mem_pcOwn_iff (c : Dev nD) (y : S512x512.Idx) :
    y ∈ (pcOwn m ρ c).1.set ↔ (y 0).val / 32 = c.val :=
  mem_rows_iff (h := k0_off2_inb c) (k0_off2_eq c) y

theorem exists_peer (c b : Dev nD) (hb : b ≠ c) : ∃ s : Fin 16, s ≠ 0 ∧ peer c s = b := by
  revert c b; decide

theorem mem_offs_opp {s : Fin 16} (hs : s ≠ 0) : s ∈ offs.map opp := by revert s; decide

theorem pcOf_mem_all (c : Dev nD) {s : Fin 16} (hs : s ≠ 0) : pcOf m ρ c s ∈ pcsAll m ρ c :=
  List.mem_append_left _ (List.mem_reverse.mpr (List.mem_map_of_mem (mem_offs_opp hs)))

theorem pcOwn_mem_all (c : Dev nD) : pcOwn m ρ c ∈ pcsAll m ρ c :=
  List.mem_append_right _ (List.mem_singleton_self _)

theorem cover_all (c : Dev nD) (y : S512x512.Idx) : ∃ p ∈ pcsAll m ρ c, y ∈ p.1.set := by
  have h0 : (y 0).val < 512 := (y 0).isLt
  by_cases hb : (⟨(y 0).val / 32, by show (y 0).val / 32 < 16; omega⟩ : Dev nD) = c
  · exact ⟨_, pcOwn_mem_all m ρ c, (mem_pcOwn_iff m ρ c y).mpr (by rw [← hb])⟩
  · obtain ⟨s, hs, hp⟩ := exists_peer c _ hb
    exact ⟨_, pcOf_mem_all m ρ c hs, (mem_pcOf_iff m ρ c hs y).mpr (by rw [hp])⟩

omit [FloatOps F] in
theorem writes_whole_of_cover {κ : Kind} (b : Ref sig κ) (f f' : b.ty.Contents (Elt F))
    (L : List (View.Piece (Elt F) b.ty.shape b.ty.elt)) (h : ∀ y, ∃ p ∈ L, y ∈ p.1.set) :
    (View.whole b).writes (Elt F) f L = (View.whole b).writes (Elt F) f' L :=
  (View.read_whole b _).symm.trans
    ((View.read_writes_of_cover (View.whole b) f (View.whole b) f' L h).trans (View.read_whole b _))

theorem out_base (c : Dev nD) (g1 : (cc0_stg1_0 : Ref sig .tc).ty.Contents (Elt F)) :
    outAfter m ρ c (offs.map opp) (putRows (k0_off2 c) (k0_off2_inb c) g1 (k0_pay10 (reduced m ρ c))) = outC m ρ c := by
  unfold outC
  rw [outAfter_own_eq_writes, outAfter_own_eq_writes]
  exact writes_whole_of_cover cc0_stg1_0 g1 (xC m ρ c) (pcsAll m ρ c) (cover_all m ρ c)

local notation "𝕄" => MT nD τ sig Unit (Elt F) ℕ UU ℕ

theorem slotOf_set_eq (B : Memref sig .tc .vmem S16x32x512 .bf16) (s : Fin 16) :
    (slotOf B s).view.set
      = B.view.setOn (Rect.unit (s := S16x32x512) ![s.val, 0, 0] S1x32x512.size (inb_slot s)).toLoadRect.set := by
  unfold slotOf
  exact (View.set_reshape _ _).trans (View.set_slice _ _)

theorem load_slot_subset (B : Memref sig .tc .vmem S16x32x512 .bf16) (s : Fin 16) :
    B.view.setOn (Rect.unit (s := S16x32x512) ![s.val, 0, 0] S1x32x512.size (inb_slot s)).toLoadRect.set
      ⊆ (slotOf B s).view.set := (slotOf_set_eq B s).ge

section Lists

variable {ℓ : Loc nD τ sig} {q : PosShare TreeShare} {α : Type}

def unionL (K : α → Finset (Idx ℓ)) (l : List α) : Finset (Idx ℓ) := l.foldr (fun a acc => K a ∪ acc) ∅

omit [FloatOps F] in
theorem unionL_cons (K : α → Finset (Idx ℓ)) (a : α) (l : List α) : unionL K (a :: l) = K a ∪ unionL K l := rfl

omit [FloatOps F] in
theorem mem_unionL {K : α → Finset (Idx ℓ)} {l : List α} {i : Idx ℓ} : i ∈ unionL K l ↔ ∃ a ∈ l, i ∈ K a := by
  induction l with
  | nil => simp [unionL]
  | cons a l ih => rw [unionL_cons, Finset.mem_union, ih]; simp

omit [FloatOps F] in
theorem disjoint_unionL {K : α → Finset (Idx ℓ)} {a : α} {l : List α} (h : ∀ b ∈ l, Disjoint (K a) (K b)) :
    Disjoint (K a) (unionL K l) :=
  Finset.disjoint_left.mpr fun i hi hu => by
    obtain ⟨b, hb, hib⟩ := mem_unionL.mp hu
    exact Finset.disjoint_left.mp (h b hb) hi hib

theorem bigSepL_mono {P Q : α → sProp 𝕄} : ∀ l : List α, (∀ a ∈ l, P a ⊢ Q a) → bigSepL l P ⊢ bigSepL l Q
  | [], _ => Entails.refl _
  | a :: l, h => by
    rw [bigSepL_cons, bigSepL_cons]
    exact BI.sep_mono (h a List.mem_cons_self) (bigSepL_mono l fun b hb => h b (List.mem_cons_of_mem _ hb))

theorem pointsTo_unionL (K : α → Finset (Idx ℓ)) (f : Buf (Elt F) ℓ) :
    ∀ l : List α, l.Pairwise (fun a b => Disjoint (K a) (K b)) →
      (ℓ ↦[unionL K l]{q} f : sProp 𝕄) = bigSepL l (fun a => ℓ ↦[K a]{q} f)
  | [], _ => pointsTo_empty
  | a :: l, h => by
    have hu : (ℓ ↦[K a ∪ unionL K l]{q} f : sProp 𝕄) ⊣⊢ iprop((ℓ ↦[K a]{q} f) ∗ ℓ ↦[unionL K l]{q} f) :=
      pointsTo_union (disjoint_unionL (List.pairwise_cons.mp h).1)
    rw [bigSepL_cons, ← pointsTo_unionL K f l (List.pairwise_cons.mp h).2, unionL_cons, BI.equiv_iff.mp ⟨hu.1, hu.2⟩]
    rfl

theorem pointsTo_unionL_join (K : α → Finset (Idx ℓ)) :
    ∀ l : List α, l ≠ [] → l.Pairwise (fun a b => Disjoint (K a) (K b)) →
      bigSepL l (fun a => (iprop(∃ g : Buf (Elt F) ℓ, ℓ ↦[K a]{q} g) : sProp 𝕄))
        ⊢ (iprop(∃ g : Buf (Elt F) ℓ, ℓ ↦[unionL K l]{q} g) : sProp 𝕄)
  | [], h, _ => absurd rfl h
  | [a], _, _ => by
    rw [bigSepL_singleton, unionL_cons]
    show _ ⊢ (iprop(∃ g : Buf (Elt F) ℓ, ℓ ↦[K a ∪ ∅]{q} g) : sProp 𝕄)
    rw [Finset.union_empty]
  | a :: b :: l, _, h => by
    have ih := pointsTo_unionL_join K (b :: l) (List.cons_ne_nil _ _) (List.pairwise_cons.mp h).2
    have hd : Disjoint (K a) (unionL K (b :: l)) := disjoint_unionL (List.pairwise_cons.mp h).1
    rw [bigSepL_cons_cons, unionL_cons]
    refine (show (iprop((∃ g : Buf (Elt F) ℓ, ℓ ↦[K a]{q} g)
        ∗ bigSepL (b :: l) (fun a => (iprop(∃ g : Buf (Elt F) ℓ, ℓ ↦[K a]{q} g) : sProp 𝕄))) : sProp 𝕄) ⊢ _ from ?_)
    iintro ⟨Ha, Hl⟩
    ihave H := ih $$ Hl
    icases Ha with ⟨%ga, Ha⟩
    icases H with ⟨%g, H⟩
    iexists (unionL K (b :: l)).piecewise g ga
    iapply (pointsTo_join hd)
    isplitl [Ha]
    · iexact Ha
    · iexact H

end Lists

abbrev slotRect (s : Fin 16) : Rect S16x32x512 :=
  Rect.unit (s := S16x32x512) ![s.val, 0, 0] S1x32x512.size (inb_slot s)

def allSlots : List (Fin 16) := [0, 1, 2, 3, 4, 5, 6, 7, 8, 9, 10, 11, 12, 13, 14, 15]
theorem mem_allSlots (s : Fin 16) : s ∈ allSlots := by revert s; decide
theorem allSlots_nodup : allSlots.Nodup := by decide
theorem allSlots_ne_nil : allSlots ≠ [] := by decide

theorem slotRect_disjoint {s s' : Fin 16} (h : s ≠ s') : Disjoint (slotRect s).set (slotRect s').set :=
  Rect.unit_disjoint (s := S16x32x512) (⟨0, by decide⟩ : Fin S16x32x512.rank) (by
    have hne : s.val ≠ s'.val := fun e => h (Fin.ext e)
    show s.val + 1 ≤ s'.val ∨ s'.val + 1 ≤ s.val
    omega)

theorem mem_slotRect (y : S16x32x512.Idx) : y ∈ (slotRect ⟨(y 0).val, (y 0).isLt⟩).set := by
  rw [Rect.mem_set_unit]
  have h1 : (y 1).val < 32 := (y 1).isLt
  have h2 : (y 2).val < 512 := (y 2).isLt
  intro a
  match a with
  | ⟨0, _⟩ => show (y 0).val ≤ (y 0).val ∧ (y 0).val < (y 0).val + 1; omega
  | ⟨1, _⟩ => show 0 ≤ (y 1).val ∧ (y 1).val < 0 + 32; omega
  | ⟨2, _⟩ => show 0 ≤ (y 2).val ∧ (y 2).val < 0 + 512; omega

section Slots

variable (B : Memref sig .tc .vmem S16x32x512 .bf16) (c : Dev nD)

def slotSet (s : Fin 16) : Finset (Idx (B.view.loc (c : Thread nD τ))) := (slotOf B s).view.set

theorem slotSet_eq (s : Fin 16) : slotSet B c s = (slotRect s).set.map B.view.emb := slotOf_set_eq B s

theorem slotSet_disjoint {s s' : Fin 16} (h : s ≠ s') : Disjoint (slotSet B c s) (slotSet B c s') := by
  rw [slotSet_eq, slotSet_eq]
  exact (Finset.disjoint_map _).mpr (slotRect_disjoint h)

theorem slots_pairwise : allSlots.Pairwise (fun a b => Disjoint (slotSet B c a) (slotSet B c b)) :=
  List.Pairwise.imp (fun h => slotSet_disjoint B c h) allSlots_nodup

theorem unionL_slotSet (hB : B.IsWhole) : unionL (slotSet B c) allSlots = Finset.univ := by
  ext i
  simp only [Finset.mem_univ, iff_true]
  have hi : i ∈ B.view.set := by rw [hB.set_eq_univ]; exact Finset.mem_univ _
  obtain ⟨y, rfl⟩ := View.exists_emb_of_mem_set B.view hi
  refine mem_unionL.mpr ⟨⟨(y 0).val, (y 0).isLt⟩, mem_allSlots _, ?_⟩
  rw [slotSet_eq]
  exact Finset.mem_map_of_mem _ (mem_slotRect y)

theorem slots_split_same (hB : B.IsWhole) (f : Buf (Elt F) (B.view.loc (c : Thread nD τ))) :
    (B.view.loc (c : Thread nD τ) ↦{fullShare} f : sProp 𝕄) = bigSepL allSlots (fun s => slotPts B c s f) := by
  rw [← unionL_slotSet B c hB]
  exact pointsTo_unionL (slotSet B c) f allSlots (slots_pairwise B c)

theorem slots_join (hB : B.IsWhole) :
    bigSepL allSlots (fun s => (iprop(∃ f, slotPts B c s f) : sProp 𝕄))
      ⊢ (iprop(∃ f : Buf (Elt F) (B.view.loc (c : Thread nD τ)), B.view.loc (c : Thread nD τ) ↦{fullShare} f) : sProp 𝕄) := by
  have h := pointsTo_unionL_join (F := F) (q := fullShare) (slotSet B c) allSlots allSlots_ne_nil (slots_pairwise B c)
  rw [unionL_slotSet B c hB] at h
  exact h

end Slots

theorem rs_join (c : Dev nD) :
    bigSepL allSlots (fun s => (iprop(∃ f, slotPts rsM c s f) : sProp 𝕄))
      ⊢ (iprop(∃ f : Buf (Elt F) ((c : Thread nD τ).loc cc0_scratch2), ((c : Thread nD τ).loc cc0_scratch2) ↦{fullShare} f) : sProp 𝕄) :=
  slots_join rsM c (Memref.isWhole_whole _)
theorem ag_join (c : Dev nD) :
    bigSepL allSlots (fun s => (iprop(∃ f, slotPts agM c s f) : sProp 𝕄))
      ⊢ (iprop(∃ f : Buf (Elt F) ((c : Thread nD τ).loc cc0_scratch3), ((c : Thread nD τ).loc cc0_scratch3) ↦{fullShare} f) : sProp 𝕄) :=
  slots_join agM c (Memref.isWhole_whole _)

section Xb

variable (c : Dev nD)

theorem srcOff_eq {k : Fin 16} (hk : k ≠ 0) :
    k0_off1 c (BitVec.ofNat 32 (1 + (pred15 k).val)) = ![32 * (peer c k).val, 0] := by
  have hpos : 0 < k.val := Nat.pos_of_ne_zero fun h => hk (Fin.ext h)
  have e : 1 + (pred15 k).val = k.val := by show 1 + (k.val - 1) = k.val; omega
  rw [e]; exact off1_eq c k

def srcSet (k : Fin 16) : Finset (Idx ((c : Thread nD τ).loc cc0_scratch0)) := (srcSl c k).view.set

theorem srcSet_eq (k : Fin 16) :
    srcSet c k = (Rect.unit (s := S512x512) (k0_off1 c (BitVec.ofNat 32 (1 + (pred15 k).val))) S32x512.size (k0_off1_inb c (pred15 k))).set :=
  View.set_slice_whole cc0_scratch0 _

theorem mem_srcSet_iff {k : Fin 16} (hk : k ≠ 0) (y : S512x512.Idx) :
    y ∈ srcSet c k ↔ (y 0).val / 32 = (peer c k).val := by
  rw [srcSet_eq]
  exact mem_rows_iff (h := k0_off1_inb c (pred15 k)) (srcOff_eq c hk) y

theorem srcSet_disjoint {k k' : Fin 16} (hk : k ≠ 0) (hk' : k' ≠ 0) (h : k ≠ k') : Disjoint (srcSet c k) (srcSet c k') :=
  Finset.disjoint_left.mpr fun y hy hy' => by
    have e1 := (mem_srcSet_iff c hk y).mp hy
    have e2 := (mem_srcSet_iff c hk' y).mp hy'
    exact h (peer_inj c (Fin.ext (e1.symm.trans e2)))

theorem offs_pairwise_ne : offs.Pairwise (fun a b : Fin 16 => a ≠ 0 ∧ b ≠ 0 ∧ a ≠ b) := by decide
theorem offs_ne_nil : offs ≠ [] := by decide

theorem src_pairwise : offs.Pairwise (fun a b => Disjoint (srcSet c a) (srcSet c b)) :=
  List.Pairwise.imp (fun h => srcSet_disjoint c h.1 h.2.1 h.2.2) offs_pairwise_ne

def xbRest : Finset (Idx ((c : Thread nD τ).loc cc0_scratch0)) := Finset.univ \ unionL (srcSet c) offs

theorem xb_split_same (f : Buf (Elt F) ((c : Thread nD τ).loc cc0_scratch0)) :
    (((c : Thread nD τ).loc cc0_scratch0) ↦{fullShare} f : sProp 𝕄)
      = iprop((((c : Thread nD τ).loc cc0_scratch0) ↦[xbRest c]{fullShare} f)
          ∗ bigSepL offs (fun k => ((srcSl c k).view.loc (c : Thread nD τ) ↦[(srcSl c k).view.set]{fullShare} f : sProp 𝕄))) := by
  have hs : (((c : Thread nD τ).loc cc0_scratch0) ↦[Finset.univ]{fullShare} f : sProp 𝕄)
      ⊣⊢ iprop((((c : Thread nD τ).loc cc0_scratch0) ↦[unionL (srcSet c) offs]{fullShare} f)
          ∗ ((c : Thread nD τ).loc cc0_scratch0) ↦[Finset.univ \ unionL (srcSet c) offs]{fullShare} f) :=
    pointsTo_split_subset (Finset.subset_univ _)
  have hc := BI.equiv_iff.mp ⟨(hs.1.trans sep_comm.1), (sep_comm.1.trans hs.2)⟩
  rw [hc, pointsTo_unionL (srcSet c) f offs (src_pairwise c)]
  rfl

theorem xb_join :
    (iprop((∃ g : Buf (Elt F) ((c : Thread nD τ).loc cc0_scratch0), ((c : Thread nD τ).loc cc0_scratch0) ↦[xbRest c]{fullShare} g)
        ∗ bigSepL offs (fun k => (iprop(∃ g : Buf (Elt F) ((srcSl c k).view.loc (c : Thread nD τ)),
            (srcSl c k).view.loc (c : Thread nD τ) ↦[(srcSl c k).view.set]{fullShare} g) : sProp 𝕄))) : sProp 𝕄)
      ⊢ (iprop(∃ f : Buf (Elt F) ((c : Thread nD τ).loc cc0_scratch0), ((c : Thread nD τ).loc cc0_scratch0) ↦{fullShare} f) : sProp 𝕄) := by
  have hj : bigSepL offs (fun k => (iprop(∃ g : Buf (Elt F) ((srcSl c k).view.loc (c : Thread nD τ)),
            (srcSl c k).view.loc (c : Thread nD τ) ↦[(srcSl c k).view.set]{fullShare} g) : sProp 𝕄))
      ⊢ (iprop(∃ g : Buf (Elt F) ((c : Thread nD τ).loc cc0_scratch0),
            ((c : Thread nD τ).loc cc0_scratch0) ↦[unionL (srcSet c) offs]{fullShare} g) : sProp 𝕄) :=
    pointsTo_unionL_join (F := F) (q := fullShare) (srcSet c) offs offs_ne_nil (src_pairwise c)
  have hu : unionL (srcSet c) offs ∪ xbRest c = Finset.univ := Finset.union_sdiff_of_subset (Finset.subset_univ _)
  iintro ⟨Hr, Hl⟩
  ihave H := hj $$ Hl
  icases Hr with ⟨%gr, Hr⟩
  icases H with ⟨%g, H⟩
  iexists (xbRest c).piecewise gr g
  rw [← hu]
  iapply (pointsTo_join (Finset.disjoint_sdiff))
  isplitl [H]
  · iexact H
  · iexact Hr

end Xb

theorem xb_split (m : (ℓ : Loc nD τ sig) → Buf (Elt F) ℓ) (ρ : Dev nD → PrngReg) (c : Dev nD) :
    (((c : Thread nD τ).loc cc0_scratch0) ↦{fullShare} xbC m ρ c : sProp 𝕄)
      = iprop((((c : Thread nD τ).loc cc0_scratch0) ↦[xbRest c]{fullShare} xbC m ρ c)
          ∗ bigSepL offs (fun k => ((srcSl c k).view.loc (c : Thread nD τ) ↦[(srcSl c k).view.set]{fullShare} xbAt m ρ c k : sProp 𝕄))) :=
  xb_split_same c (xbC m ρ c)

section ReadOne

variable {κ : Kind} {sp : Space} {s : Shape} {e : EltTy} {Val : EltTy → Type}

omit [FloatOps F] in
theorem read_writes_of_unique (v : View sig κ sp s e) (f : v.ty.Contents Val) (p : View.Piece Val s e) (x : p.1.shape.Idx) :
    ∀ L : List (View.Piece Val s e), p ∈ L → (∀ q ∈ L, p.1.emb x ∈ q.1.set → q = p) →
      v.read Val (v.writes Val f L) (p.1.emb x) = p.2 x
  | [], h, _ => absurd h List.not_mem_nil
  | q :: L, hp, hu => by
    by_cases hq : p.1.emb x ∈ q.1.set
    · have hqp : q = p := hu q List.mem_cons_self hq
      subst hqp
      exact View.read_writes_cons_emb v f q.1 q.2 L x
    · have hy' : p.1.emb x ∉ Finset.univ.map q.1.emb := by rwa [Rect.map_emb_univ]
      rw [View.writes_cons, View.read_slice_write_of_not_mem q.1 _ _ _ hy']
      refine read_writes_of_unique v f p x L ?_ (fun q' hq' => hu q' (List.mem_cons_of_mem _ hq'))
      rcases List.mem_cons.mp hp with h | h
      · exact absurd (h ▸ p.1.idx_mem x) hq
      · exact h

end ReadOne

section OutAt

variable (m : (ℓ : Loc nD τ sig) → Buf (Elt F) ℓ) (ρ : Dev nD → PrngReg) (c : Dev nD)

end OutAt

section Chain

variable {ℓ : Loc nD τ sig}

theorem share_chain (S : Finset (Idx ℓ)) (f : Buf (Elt F) ℓ) : ∀ n k : ℕ,
    (ℓ ↦[S]{remSh k} f : sProp 𝕄)
      = iprop(bigSepL (List.range' k n) (fun j => (ℓ ↦[S]{pieceSh j} f : sProp 𝕄)) ∗ (ℓ ↦[S]{remSh (k + n)} f))
  | 0, k => by
    have he : (iprop(emp ∗ (ℓ ↦[S]{remSh k} f)) : sProp 𝕄) ⊣⊢ (ℓ ↦[S]{remSh k} f) := emp_sep
    exact (BI.equiv_iff.mp ⟨he.1, he.2⟩).symm
  | n + 1, k => by
    have hs : (ℓ ↦[S]{remSh k} f : sProp 𝕄) ⊣⊢ iprop((ℓ ↦[S]{pieceSh k} f) ∗ ℓ ↦[S]{remSh (k + 1)} f) :=
      pointsTo_share (PosShare.mem_left_op_right (remSh k))
    have ha : (iprop(((ℓ ↦[S]{pieceSh k} f) ∗ bigSepL (List.range' (k + 1) n) (fun j => (ℓ ↦[S]{pieceSh j} f : sProp 𝕄)))
          ∗ (ℓ ↦[S]{remSh (k + 1 + n)} f)) : sProp 𝕄)
        ⊣⊢ iprop((ℓ ↦[S]{pieceSh k} f) ∗ bigSepL (List.range' (k + 1) n) (fun j => (ℓ ↦[S]{pieceSh j} f : sProp 𝕄))
          ∗ (ℓ ↦[S]{remSh (k + 1 + n)} f)) := sep_assoc
    have hk : k + (n + 1) = k + 1 + n := by omega
    rw [List.range'_succ, bigSepL_cons, hk]
    refine Eq.trans ?_ (BI.equiv_iff.mp ⟨ha.1, ha.2⟩).symm
    rw [← share_chain S f n (k + 1)]
    exact BI.equiv_iff.mp ⟨hs.1, hs.2⟩

end Chain

theorem range15 : List.range 15 = [0, 1, 2, 3, 4, 5, 6, 7, 8, 9, 10, 11, 12, 13, 14] := by decide

section Ags

variable (m : (ℓ : Loc nD τ sig) → Buf (Elt F) ℓ) (ρ : Dev nD → PrngReg) (c : Dev nD)

theorem ags_split_eq :
    (((c : Thread nD τ).loc cc0_scratch1) ↦{fullShare} redC m ρ c : sProp 𝕄)
      = iprop(bigSepL (List.range 15) (fun j => ((agsM : Memref sig .tc .vmem S32x512 .bf16).view.loc (c : Thread nD τ) ↦[(agsM : Memref sig .tc .vmem S32x512 .bf16).view.set]{pieceSh j} redAt m ρ c : sProp 𝕄))
          ∗ ((agsM : Memref sig .tc .vmem S32x512 .bf16).view.loc (c : Thread nD τ) ↦[(agsM : Memref sig .tc .vmem S32x512 .bf16).view.set]{remSh 15} redAt m ρ c)) := by
  have h := share_chain (F := F) (ℓ := (agsM : Memref sig .tc .vmem S32x512 .bf16).view.loc (c : Thread nD τ))
    (agsM : Memref sig .tc .vmem S32x512 .bf16).view.set (redAt m ρ c) 15 0
  rw [Nat.zero_add, ← List.range_eq_range'] at h
  have e0 : (((c : Thread nD τ).loc cc0_scratch1) ↦{fullShare} redC m ρ c : sProp 𝕄)
      = ((agsM : Memref sig .tc .vmem S32x512 .bf16).view.loc (c : Thread nD τ) ↦[(agsM : Memref sig .tc .vmem S32x512 .bf16).view.set]{remSh 0} redAt m ρ c : sProp 𝕄) := by
    rw [show (agsM : Memref sig .tc .vmem S32x512 .bf16).view.set = Finset.univ from View.set_whole cc0_scratch1]
    rfl
  exact e0.trans h

theorem ags_split :
    (((c : Thread nD τ).loc cc0_scratch1) ↦{fullShare} redC m ρ c : sProp 𝕄)
      ⊢ iprop(bigSepL (List.range 15) (fun j => ((agsM : Memref sig .tc .vmem S32x512 .bf16).view.loc (c : Thread nD τ) ↦[(agsM : Memref sig .tc .vmem S32x512 .bf16).view.set]{pieceSh j} redAt m ρ c : sProp 𝕄))
          ∗ ((agsM : Memref sig .tc .vmem S32x512 .bf16).view.loc (c : Thread nD τ) ↦[(agsM : Memref sig .tc .vmem S32x512 .bf16).view.set]{remSh 15} redAt m ρ c)) :=
  Entails.of_eq (ags_split_eq m ρ c)

theorem ags_join :
    (iprop(bigSepL (List.range 15) (fun j => ((agsM : Memref sig .tc .vmem S32x512 .bf16).view.loc (c : Thread nD τ) ↦[(agsM : Memref sig .tc .vmem S32x512 .bf16).view.set]{pieceSh j} redAt m ρ c : sProp 𝕄))
          ∗ ((agsM : Memref sig .tc .vmem S32x512 .bf16).view.loc (c : Thread nD τ) ↦[(agsM : Memref sig .tc .vmem S32x512 .bf16).view.set]{remSh 15} redAt m ρ c)) : sProp 𝕄)
      ⊢ (iprop(∃ f : Buf (Elt F) ((c : Thread nD τ).loc cc0_scratch1), ((c : Thread nD τ).loc cc0_scratch1) ↦{fullShare} f) : sProp 𝕄) :=
  (Entails.of_eq (ags_split_eq m ρ c).symm).trans
    (BIClass.exists_intro (Φ := fun f : Buf (Elt F) ((c : Thread nD τ).loc cc0_scratch1) =>
      (((c : Thread nD τ).loc cc0_scratch1) ↦{fullShare} f : sProp 𝕄)) (redC m ρ c))

def xbOwnP : sProp 𝕄 := ((c : Thread nD τ).loc cc0_scratch0) ↦[xbRest c]{fullShare} xbC m ρ c

theorem xb_split_e :
    (((c : Thread nD τ).loc cc0_scratch0) ↦{fullShare} xbC m ρ c : sProp 𝕄)
      ⊢ iprop(xbOwnP m ρ c ∗ bigSepL offs (fun k => ((srcSl c k).view.loc (c : Thread nD τ) ↦[(srcSl c k).view.set]{fullShare} xbAt m ρ c k : sProp 𝕄))) :=
  Entails.of_eq (xb_split m ρ c)

theorem xb_join_e :
    (iprop(xbOwnP m ρ c ∗ bigSepL offs (fun k => ((srcSl c k).view.loc (c : Thread nD τ) ↦[(srcSl c k).view.set]{fullShare} xbAt m ρ c k : sProp 𝕄))) : sProp 𝕄)
      ⊢ (iprop(∃ f : Buf (Elt F) ((c : Thread nD τ).loc cc0_scratch0), ((c : Thread nD τ).loc cc0_scratch0) ↦{fullShare} f) : sProp 𝕄) :=
  (Entails.of_eq (xb_split m ρ c).symm).trans
    (BIClass.exists_intro (Φ := fun f : Buf (Elt F) ((c : Thread nD τ).loc cc0_scratch0) =>
      (((c : Thread nD τ).loc cc0_scratch0) ↦{fullShare} f : sProp 𝕄)) (xbC m ρ c))

end Ags

end Cert.KernelIdeal.Views

end
-- ==== Proof.Facts.lean ====
import proofs.«901016_g7700000000001017_dist_rs_then_ag_i_m512_n512_v7x_i16_bf16_1_alg».proof.Proof.BodyDefs
import proofs.«901016_g7700000000001017_dist_rs_then_ag_i_m512_n512_v7x_i16_bf16_1_alg».proof.Proof.Views

noncomputable section

namespace Cert.KernelIdeal.Facts

open Cert.KernelIdeal Cert.KernelIdeal.Gen Cert.KernelIdeal.Proto Cert.KernelIdeal.Steps
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem split_of (B : Memref sig .tc .vmem S16x32x512 .bf16) (hB : B.IsWhole) (c : Dev nD)
    (f : Buf (Elt F) (B.view.loc (c : Thread nD τ))) :
    (B.view.loc (c : Thread nD τ) ↦{fullShare} f : sProp 𝕄)
      ⊢ bigSepL Views.allSlots (fun s => (iprop(∃ f', slotPts (F := F) B c s f') : sProp 𝕄)) :=
  (Entails.of_eq (Views.slots_split_same B c hB f)).trans
    (Views.bigSepL_mono Views.allSlots fun s _ => BIClass.exists_intro (Φ := fun g => slotPts (F := F) B c s g) f)

theorem viewFacts : Body.ViewFacts (F := F) where
  rw_slot := fun B s c' fd X => Views.read_write_slot B s c' fd X
  split_rs := fun c f => split_of rsM (Memref.isWhole_whole _) c f
  split_ag := fun c f => split_of agM (Memref.isWhole_whole _) c f

variable (m : (ℓ : Loc nD τ sig) → Buf (Elt F) ℓ) (ρ : Dev nD → PrngReg)

def moreFacts : Body.MoreFacts (F := F) m ρ where
  xbOwn := Views.xbOwnP m ρ
  xb_split := fun c => Views.xb_split_e m ρ c
  xb_join := fun c => Views.xb_join_e m ρ c
  load_sub := fun B s => Views.load_slot_subset B s
  load_slot := fun B s f => Views.load_slotOf B s f
  ags_split := fun c => by
    have h := Views.ags_split m ρ c
    rw [Views.range15] at h
    exact h
  ags_join := fun c => by
    have h := Views.ags_join m ρ c
    rw [Views.range15] at h
    exact h
  rs_join := fun c => Views.rs_join c
  ag_join := fun c => Views.ag_join c
  out_base := fun c g1 => Views.out_base m ρ c g1

end Cert.KernelIdeal.Facts

end
-- ==== Proof.Finish.lean ====
import proofs.«901016_g7700000000001017_dist_rs_then_ag_i_m512_n512_v7x_i16_bf16_1_alg».proof.Proof.BodyDefs
import proofs.«901016_g7700000000001017_dist_rs_then_ag_i_m512_n512_v7x_i16_bf16_1_alg».proof.Proof.Levels

noncomputable section

namespace Cert.KernelIdeal.Body

open Cert.KernelIdeal Cert.KernelIdeal.Gen Cert.KernelIdeal.Proto Cert.KernelIdeal.Steps Cert.KernelIdeal.Levels
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Lists
variable {M : Type} [URA M]

theorem bigSepL_map {I J : Type} (f : I → J) (l : List I) (Φ : J → sProp M) : bigSepL (l.map f) Φ = bigSepL l (fun i => Φ (f i)) := by
  induction l with
  | nil => rfl
  | cons i l ih => rw [List.map_cons, bigSepL_cons, bigSepL_cons, ih]

theorem bigSepL_slots (Φ : Fin 16 → sProp M) : iprop(Φ 0 ∗ bigSepL offs fun k => Φ (opp k)) = bigSepL slots16 Φ := by
  rw [← bigSep_univ_eq_bigSepL slots16 (by decide) (by decide) Φ]
  exact (bigSep_univ_eq_bigSepL (0 :: offs.map opp) (by decide) (by decide) Φ).symm

end Lists

theorem xb_whole (MF : MoreFacts m ρ) (c : Dev nD) :
    iprop(MF.xbOwn c ∗ bigSepL offs (fun k => rsSendPay m ρ c (opp k)))
      ⊢ iprop(∃ f : Buf (Elt F) ((c : Thread nD τ).loc cc0_scratch0), ((c : Thread nD τ).loc cc0_scratch0) ↦{fullShare} f) := by
  have h : (fun k : Fin 16 => rsSendPay m ρ c (opp k))
      = fun k : Fin 16 => ((srcSl c k).view.loc (c : Thread nD τ) ↦[(srcSl c k).view.set]{fullShare} xbAt m ρ c k : sProp 𝕄) :=
    funext fun k => by unfold rsSendPay; rw [opp_opp]
  rw [h]
  exact MF.xb_join c

theorem ags_whole (MF : MoreFacts m ρ) (c : Dev nD) :
    iprop(bigSepL offs (fun k => agSendPay m ρ c (opp k)) ∗ (agsM.view.loc (c : Thread nD τ) ↦[agsM.view.set]{remSh 15} redAt m ρ c))
      ⊢ iprop(∃ f : Buf (Elt F) ((c : Thread nD τ).loc cc0_scratch1), ((c : Thread nD τ).loc cc0_scratch1) ↦{fullShare} f) := by
  have hl : offs.map (fun k => posOf (opp k)) = ([0, 1, 2, 3, 4, 5, 6, 7, 8, 9, 10, 11, 12, 13, 14] : List ℕ) := by decide
  have h : bigSepL offs (fun k => agSendPay m ρ c (opp k))
      = bigSepL ([0, 1, 2, 3, 4, 5, 6, 7, 8, 9, 10, 11, 12, 13, 14] : List ℕ) (fun j => (agsM.view.loc (c : Thread nD τ) ↦[agsM.view.set]{pieceSh j} redAt m ρ c : sProp 𝕄)) := by
    rw [← hl, bigSepL_map]; rfl
  rw [h]
  exact MF.ags_join c

omit [FloatOps F] in
theorem slots_whole (B : Memref sig .tc .vmem S16x32x512 .bf16) (c : Dev nD) (f0 : Buf (Elt F) ((slotOf B 0).view.loc (c : Thread nD τ))) :
    iprop(slotPts B c 0 f0 ∗ bigSepL offs (fun k => iprop(∃ f, slotPts (F := F) B c (opp k) f)))
      ⊢ bigSepL slots16 (fun s => iprop(∃ f', slotPts (F := F) B c s f')) := by
  rw [← bigSepL_slots (fun s => iprop(∃ f', slotPts (F := F) B c s f'))]
  iintro ⟨H0, HL⟩
  isplitl [H0]; · iexists f0; iexact H0
  iexact HL

theorem close_slot0 (K : Dev nD × CK → ℕ) (c : Dev nD) : iprop(records m ρ K ∗ posK c 0) ⊢ (|={Set.univ}=> semK (F := F) c 0 : sProp 𝕄) := by
  have hI4 : records m ρ K ⊢ cellInv ER (Rd m ρ) (K (c, some (0, 0))) (rsSend c 0) := inv_at m ρ K (c, some (0, 0))
  have hI5 : records m ρ K ⊢ cellInv ER (Rd m ρ) (K (c, some (1, 0))) (rsRecv c 0) := inv_at m ρ K (c, some (1, 0))
  have hI6 : records m ρ K ⊢ cellInv ER (Rd m ρ) (K (c, some (2, 0))) (agSend c 0) := inv_at m ρ K (c, some (2, 0))
  have hI7 : records m ρ K ⊢ cellInv ER (Rd m ρ) (K (c, some (3, 0))) (agRecv c 0) := inv_at m ρ K (c, some (3, 0))
  unfold posK semK
  iintro ⟨#HR, H4, H5, H6, H7⟩
  imod (Rounds.cell_close ER (Rd m ρ) (κ := K (c, some (0, 0))) (Es := Set.univ) (Set.mem_univ _) (fun h => h) (R := 0)
      (duties_slot0 m ρ c cc0_scratch4 ⟨0, slotIx_4 0⟩)) $$ [H4] with Hs4
  · isplitr; · iapply hI4; iexact HR
    iexact H4
  imod (Rounds.cell_close ER (Rd m ρ) (κ := K (c, some (1, 0))) (Es := Set.univ) (Set.mem_univ _) (fun h => h) (R := 0)
      (duties_slot0 m ρ c cc0_scratch5 ⟨1, slotIx_5 0⟩)) $$ [H5] with Hs5
  · isplitr; · iapply hI5; iexact HR
    iexact H5
  imod (Rounds.cell_close ER (Rd m ρ) (κ := K (c, some (2, 0))) (Es := Set.univ) (Set.mem_univ _) (fun h => h) (R := 0)
      (duties_slot0 m ρ c cc0_scratch6 ⟨2, slotIx_6 0⟩)) $$ [H6] with Hs6
  · isplitr; · iapply hI6; iexact HR
    iexact H6
  imod (Rounds.cell_close ER (Rd m ρ) (κ := K (c, some (3, 0))) (Es := Set.univ) (Set.mem_univ _) (fun h => h) (R := 0)
      (duties_slot0 m ρ c cc0_scratch7 ⟨3, slotIx_7 0⟩)) $$ [H7] with Hs7
  · isplitr; · iapply hI7; iexact HR
    iexact H7
  imodintro
  isplitl [Hs4]; · iexact Hs4
  isplitl [Hs5]; · iexact Hs5
  isplitl [Hs6]; · iexact Hs6
  iexact Hs7

/-- What the body holds at its end reassembles into the whole buffers its postcondition names. -/
theorem finish (MF : MoreFacts m ρ) (K : Dev nD × CK → ℕ) (c : Dev nD) (W : Waits sig Unit)
    (g1 : (cc0_stg1_0 : Ref sig .tc).ty.Contents (Elt F))
    (frs0 : Buf (Elt F) ((slotOf rsM 0).view.loc (c : Thread nD τ))) (fag0 : Buf (Elt F) ((slotOf agM 0).view.loc (c : Thread nD τ))) :
    iprop(records m ρ K
      ∗ (MF.xbOwn c ∗ bigSepL offs (fun k => rsSendPay m ρ c (opp k)))
      ∗ (bigSepL offs (fun k => agSendPay m ρ c (opp k)) ∗ (agsM.view.loc (c : Thread nD τ) ↦[agsM.view.set]{remSh 15} redAt m ρ c))
      ∗ (slotPts rsM c 0 frs0 ∗ bigSepL offs (fun k => iprop(∃ f, slotPts (F := F) rsM c (opp k) f)))
      ∗ (slotPts agM c 0 fag0 ∗ bigSepL offs (fun k => iprop(∃ f, slotPts (F := F) agM c (opp k) f)))
      ∗ posK c 0
      ∗ bigSepL offs (fun k => semK (F := F) c (opp k))
      ∗ owes (c : Thread nD τ) (owesAt c [] [] []) W
      ∗ (((c : Thread nD τ).loc cc0_stg0_0) ↦{fullShare} xC m ρ c)
      ∗ (((c : Thread nD τ).loc cc0_stg1_0) ↦{fullShare}
          outAfter m ρ c (offs.map opp) (putRows (k0_off2 c) (k0_off2_inb c) g1 (k0_pay10 (reduced m ρ c)))))
      ⊢ (|={Set.univ}=> bodyPost m ρ c : sProp 𝕄) := by
  have h0 : (dats (F := F) m ρ 0 c).owed t₀.succ = 0 := rfl
  rw [MF.out_base c g1, owesAt_nil]
  iintro ⟨#HR, Hxb, Hags, Hrs, Hag, Hpos, Hsem, HO, Hx, Hout⟩
  imod (close_slot0 m ρ K c) $$ [Hpos] with Hs0
  · iframe HR Hpos
  imodintro
  unfold bodyPost Φ₁ scr
  isplitl [Hxb Hags Hrs Hag Hs0 Hsem]
  · isplitl [Hxb Hags Hrs Hag]
    · isplitl [Hxb]; · iapply (xb_whole m ρ MF c); iexact Hxb
      isplitl [Hags]; · iapply (ags_whole m ρ MF c); iexact Hags
      isplitl [Hrs]; · iapply (MF.rs_join c); iapply (slots_whole (F := F) rsM c frs0); iexact Hrs
      iapply (MF.ag_join c); iapply (slots_whole (F := F) agM c fag0); iexact Hag
    isplitl [Hs0]; · iexact Hs0
    iexact Hsem
  isplitl [HO]
  · unfold Dat.owesAt Pipeline.owesWithin
    rw [h0]
    iexists W
    isplitr; · ipureintro; exact fun _ _ => Or.inl trivial
    iexact HO
  isplitl [Hx]
  · iexists (xC m ρ c); isplitr; · ipureintro; rfl
    iexact Hx
  · iexists (outC m ρ c); isplitr; · ipureintro; rfl
    iexact Hout

end Cert.KernelIdeal.Body

end
-- ==== Proof.Body.lean ====
import proofs.«901016_g7700000000001017_dist_rs_then_ag_i_m512_n512_v7x_i16_bf16_1_alg».proof.Proof.BodyDefs
import proofs.«901016_g7700000000001017_dist_rs_then_ag_i_m512_n512_v7x_i16_bf16_1_alg».proof.Proof.Levels
import proofs.«901016_g7700000000001017_dist_rs_then_ag_i_m512_n512_v7x_i16_bf16_1_alg».proof.Proof.Finish

noncomputable section

namespace Cert.KernelIdeal.Body

open Cert.KernelIdeal Cert.KernelIdeal.Gen Cert.KernelIdeal.Proto Cert.KernelIdeal.Steps
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem pbind_ret {E : Type → Type} {α β : Type} (a : α) (k : α → Prog E β) : (Prog.ret a).bind k = k a := rfl

local macro "sx" : tactic => `(tactic| first | sl_exec_parts | (simp only [pbind_ret]; sl_exec_parts) | skip)

/-- A wait on one of the device's own transfer cells hands back that cell's one payload and closes the cell. -/
theorem wait_rsSend (K : Dev nD × CK → ℕ) (c : Dev nD) (s : Fin 16) (hs : s ≠ 0) (O : CellTallies nD τ sig Unit) (W : Waits sig Unit)
    {sp sp' : Space} {s1 s2 : Shape} {e1 e2 : EltTy} {src : Memref sig .tc sp' s2 e2} {κ' : Kind} {dst : Memref sig κ' sp s1 e1}
    {h1 : src.view.WordExact} {h2 : dst.view.WordExact} (hN : dst.view.dmaCredit = N)
    {α : Type} {Q : α → sProp 𝕄} {kont : PUnit → Prog (TpuEff nD τ sig (Elt F) Λ₀ .tc) α} :
    iprop(records m ρ K ∗ cred (tallyAt (rsSend c s) () N) ∗ owes (c : Thread nD τ) O W
        ∗ MayWait (c : Thread nD τ) (.dma (semAt cc0_scratch4 s)) () O ∗ atPos ER (rsSend c s) 0 ∅ 0)
      ⊢ iprop(((owes (c : Thread nD τ) O (insert (SemLoc.dma (semAt cc0_scratch4 s), ()) W) ∗ semVal (rsSend c s) 0 ∗ rsSendPay m ρ c s)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (semAt cc0_scratch4 s) src dst h1 h2) kont) Q) := by
  have h := step_dmaWait m ρ K c 0 s O W (expect_rsSend m ρ c hs) (duties_rsSend m ρ c hs) (src := src) (dst := dst) (h1 := h1) (h2 := h2) hN (Q := Q) (kont := kont)
  have e : (Rd m ρ).payload ((c : Thread nD τ), SemLoc.dma (semAt (arrOf 0) s)) 0 0 = rsSendPay m ρ c s := payload_rsSend m ρ c s 0
  rw [e] at h
  exact h

theorem wait_rsRecv (K : Dev nD × CK → ℕ) (c : Dev nD) (s : Fin 16) (hs : s ≠ 0) (O : CellTallies nD τ sig Unit) (W : Waits sig Unit)
    {sp sp' : Space} {s1 s2 : Shape} {e1 e2 : EltTy} {src : Memref sig .tc sp' s2 e2} {κ' : Kind} {dst : Memref sig κ' sp s1 e1}
    {h1 : src.view.WordExact} {h2 : dst.view.WordExact} (hN : dst.view.dmaCredit = N)
    {α : Type} {Q : α → sProp 𝕄} {kont : PUnit → Prog (TpuEff nD τ sig (Elt F) Λ₀ .tc) α} :
    iprop(records m ρ K ∗ cred (tallyAt (rsRecv c s) () N) ∗ owes (c : Thread nD τ) O W
        ∗ MayWait (c : Thread nD τ) (.dma (semAt cc0_scratch5 s)) () O ∗ atPos ER (rsRecv c s) 0 ∅ 0)
      ⊢ iprop(((owes (c : Thread nD τ) O (insert (SemLoc.dma (semAt cc0_scratch5 s), ()) W) ∗ semVal (rsRecv c s) 0 ∗ rsRecvPay m ρ c s)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (semAt cc0_scratch5 s) src dst h1 h2) kont) Q) := by
  have h := step_dmaWait m ρ K c 1 s O W (expect_rsRecv m ρ c hs) (duties_rsRecv m ρ c hs) (src := src) (dst := dst) (h1 := h1) (h2 := h2) hN (Q := Q) (kont := kont)
  have e : (Rd m ρ).payload ((c : Thread nD τ), SemLoc.dma (semAt (arrOf 1) s)) 0 0 = rsRecvPay m ρ c s := payload_rsRecv m ρ c s 0
  rw [e] at h
  exact h

theorem wait_agSend (K : Dev nD × CK → ℕ) (c : Dev nD) (s : Fin 16) (hs : s ≠ 0) (O : CellTallies nD τ sig Unit) (W : Waits sig Unit)
    {sp sp' : Space} {s1 s2 : Shape} {e1 e2 : EltTy} {src : Memref sig .tc sp' s2 e2} {κ' : Kind} {dst : Memref sig κ' sp s1 e1}
    {h1 : src.view.WordExact} {h2 : dst.view.WordExact} (hN : dst.view.dmaCredit = N)
    {α : Type} {Q : α → sProp 𝕄} {kont : PUnit → Prog (TpuEff nD τ sig (Elt F) Λ₀ .tc) α} :
    iprop(records m ρ K ∗ cred (tallyAt (agSend c s) () N) ∗ owes (c : Thread nD τ) O W
        ∗ MayWait (c : Thread nD τ) (.dma (semAt cc0_scratch6 s)) () O ∗ atPos ER (agSend c s) 0 ∅ 0)
      ⊢ iprop(((owes (c : Thread nD τ) O (insert (SemLoc.dma (semAt cc0_scratch6 s), ()) W) ∗ semVal (agSend c s) 0 ∗ agSendPay m ρ c s)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (semAt cc0_scratch6 s) src dst h1 h2) kont) Q) := by
  have h := step_dmaWait m ρ K c 2 s O W (expect_agSend m ρ c hs) (duties_agSend m ρ c hs) (src := src) (dst := dst) (h1 := h1) (h2 := h2) hN (Q := Q) (kont := kont)
  have e : (Rd m ρ).payload ((c : Thread nD τ), SemLoc.dma (semAt (arrOf 2) s)) 0 0 = agSendPay m ρ c s := payload_agSend m ρ c s 0
  rw [e] at h
  exact h

theorem wait_agRecv (K : Dev nD × CK → ℕ) (c : Dev nD) (s : Fin 16) (hs : s ≠ 0) (O : CellTallies nD τ sig Unit) (W : Waits sig Unit)
    {sp sp' : Space} {s1 s2 : Shape} {e1 e2 : EltTy} {src : Memref sig .tc sp' s2 e2} {κ' : Kind} {dst : Memref sig κ' sp s1 e1}
    {h1 : src.view.WordExact} {h2 : dst.view.WordExact} (hN : dst.view.dmaCredit = N)
    {α : Type} {Q : α → sProp 𝕄} {kont : PUnit → Prog (TpuEff nD τ sig (Elt F) Λ₀ .tc) α} :
    iprop(records m ρ K ∗ cred (tallyAt (agRecv c s) () N) ∗ owes (c : Thread nD τ) O W
        ∗ MayWait (c : Thread nD τ) (.dma (semAt cc0_scratch7 s)) () O ∗ atPos ER (agRecv c s) 0 ∅ 0)
      ⊢ iprop(((owes (c : Thread nD τ) O (insert (SemLoc.dma (semAt cc0_scratch7 s), ()) W) ∗ semVal (agRecv c s) 0 ∗ agRecvPay m ρ c s)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (semAt cc0_scratch7 s) src dst h1 h2) kont) Q) := by
  have h := step_dmaWait m ρ K c 3 s O W (expect_agRecv m ρ c hs) (duties_agRecv m ρ c hs) (src := src) (dst := dst) (h1 := h1) (h2 := h2) hN (Q := Q) (kont := kont)
  have e : (Rd m ρ).payload ((c : Thread nD τ), SemLoc.dma (semAt (arrOf 3) s)) 0 0 = agRecvPay m ρ c s := payload_agRecv m ρ c s 0
  rw [e] at h
  exact h

set_option maxHeartbeats 0 in
/-- Soundness of one thread's body: it spends its debts and tokens in program order and ends holding its postcondition. -/
theorem sound_body (VF : ViewFacts (F := F)) (MF : MoreFacts m ρ) (K : Dev nD × CK → ℕ) (c : Dev nD) (Kt : PUnit → sProp 𝕄) :
    iprop(bodyPreK m ρ K c ∗ (bodyPost m ρ c -∗ Kt ⟨⟩))
      ⊢ wp frame (wpE (defs₀ (F := F)) 𝒱₀ (c : Thread nD τ) none) Set.univ
          (cc0_body xM (Memref.isWhole_whole _) oM (Memref.isWhole_whole _) xbM (Memref.isWhole_whole _) agsM (Memref.isWhole_whole _)
            rsM (Memref.isWhole_whole _) agM (Memref.isWhole_whole _) cc0_scratch4 cc0_scratch5 cc0_scratch6 cc0_scratch7) Kt := by
  unfold bodyPreK ghost positions payToks creds scr
  simp only [offs, bigSepL_cons_cons, bigSepL_singleton, sepL]
  unfold payTok posK
  simp only [opp_1, opp_2, opp_3, opp_4, opp_5, opp_6, opp_7, opp_8, opp_9, opp_10, opp_11, opp_12, opp_13, opp_14, opp_15]
  iintro ⟨⟨⟨⟨⟨#HR, ⟨HatB, ⟨Hp0a, Hp0b, Hp0c, Hp0d⟩, ⟨HpS1, HpR1, HpAS1, HpAR1⟩, ⟨HpS15, HpR15, HpAS15, HpAR15⟩, ⟨HpS2, HpR2, HpAS2, HpAR2⟩, ⟨HpS14, HpR14, HpAS14, HpAR14⟩, ⟨HpS3, HpR3, HpAS3, HpAR3⟩, ⟨HpS13, HpR13, HpAS13, HpAR13⟩, ⟨HpS4, HpR4, HpAS4, HpAR4⟩, ⟨HpS12, HpR12, HpAS12, HpAR12⟩, ⟨HpS5, HpR5, HpAS5, HpAR5⟩, ⟨HpS11, HpR11, HpAS11, HpAR11⟩, ⟨HpS6, HpR6, HpAS6, HpAR6⟩, ⟨HpS10, HpR10, HpAS10, HpAR10⟩, ⟨HpS7, HpR7, HpAS7, HpAR7⟩, ⟨HpS9, HpR9, HpAS9, HpAR9⟩, ⟨HpS8, HpR8, HpAS8, HpAR8⟩⟩, ⟨⟨HtB1, HtS1, HtR1, HtAS1, HtAR1⟩, ⟨HtB15, HtS15, HtR15, HtAS15, HtAR15⟩, ⟨HtB2, HtS2, HtR2, HtAS2, HtAR2⟩, ⟨HtB14, HtS14, HtR14, HtAS14, HtAR14⟩, ⟨HtB3, HtS3, HtR3, HtAS3, HtAR3⟩, ⟨HtB13, HtS13, HtR13, HtAS13, HtAR13⟩, ⟨HtB4, HtS4, HtR4, HtAS4, HtAR4⟩, ⟨HtB12, HtS12, HtR12, HtAS12, HtAR12⟩, ⟨HtB5, HtS5, HtR5, HtAS5, HtAR5⟩, ⟨HtB11, HtS11, HtR11, HtAS11, HtAR11⟩, ⟨HtB6, HtS6, HtR6, HtAS6, HtAR6⟩, ⟨HtB10, HtS10, HtR10, HtAS10, HtAR10⟩, ⟨HtB7, HtS7, HtR7, HtAS7, HtAR7⟩, ⟨HtB9, HtS9, HtR9, HtAS9, HtAR9⟩, ⟨HtB8, HtS8, HtR8, HtAS8, HtAR8⟩⟩⟩, ⟨HcB, ⟨HcR1, HcAR1⟩, ⟨HcR15, HcAR15⟩, ⟨HcR2, HcAR2⟩, ⟨HcR14, HcAR14⟩, ⟨HcR3, HcAR3⟩, ⟨HcR13, HcAR13⟩, ⟨HcR4, HcAR4⟩, ⟨HcR12, HcAR12⟩, ⟨HcR5, HcAR5⟩, ⟨HcR11, HcAR11⟩, ⟨HcR6, HcAR6⟩, ⟨HcR10, HcAR10⟩, ⟨HcR7, HcAR7⟩, ⟨HcR9, HcAR9⟩, ⟨HcR8, HcAR8⟩⟩, #Hlev⟩, ⟨⟨%fxb, Hxb⟩, ⟨%fags, Hags⟩, ⟨%frs, Hrs⟩, ⟨%fag, Hag⟩⟩⟩, Ho, ⟨%d0, %g0, %hg0, Hx⟩, ⟨%d1, %g1, %hg1, Hout⟩⟩, Hk⟩
  unfold Dat.owesAt Pipeline.owesWithin
  icases Ho with ⟨%W, %hW, HO⟩
  rw [show (dats m ρ 0 c).owed t₀.castSucc = O₀ c from rfl]
  rw [show O₀ c = owesAt c [1, 15, 2, 14, 3, 13, 4, 12, 5, 11, 6, 10, 7, 9, 8] [1, 15, 2, 14, 3, 13, 4, 12, 5, 11, 6, 10, 7, 9, 8] [1, 15, 2, 14, 3, 13, 4, 12, 5, 11, 6, 10, 7, 9, 8] from rfl]
  ihave Hrs' := (VF.split_rs c frs) $$ Hrs
  ihave Hag' := (VF.split_ag c fag) $$ Hag
  simp only [slots16, bigSepL_cons_cons, bigSepL_singleton, sepL]
  icases Hrs' with ⟨⟨%frs0, Hrs0⟩, ⟨%frs1, Hrs1⟩, ⟨%frs2, Hrs2⟩, ⟨%frs3, Hrs3⟩, ⟨%frs4, Hrs4⟩, ⟨%frs5, Hrs5⟩, ⟨%frs6, Hrs6⟩, ⟨%frs7, Hrs7⟩, ⟨%frs8, Hrs8⟩, ⟨%frs9, Hrs9⟩, ⟨%frs10, Hrs10⟩, ⟨%frs11, Hrs11⟩, ⟨%frs12, Hrs12⟩, ⟨%frs13, Hrs13⟩, ⟨%frs14, Hrs14⟩, ⟨%frs15, Hrs15⟩⟩
  icases Hag' with ⟨⟨%fag0, Hag0⟩, ⟨%fag1, Hag1⟩, ⟨%fag2, Hag2⟩, ⟨%fag3, Hag3⟩, ⟨%fag4, Hag4⟩, ⟨%fag5, Hag5⟩, ⟨%fag6, Hag6⟩, ⟨%fag7, Hag7⟩, ⟨%fag8, Hag8⟩, ⟨%fag9, Hag9⟩, ⟨%fag10, Hag10⟩, ⟨%fag11, Hag11⟩, ⟨%fag12, Hag12⟩, ⟨%fag13, Hag13⟩, ⟨%fag14, Hag14⟩, ⟨%fag15, Hag15⟩⟩

  sx
  rw [peel_sig]
  iapply (step_signal m ρ K c 1 (by decide) 15 rfl _ (dev1_eq c) frs1 fag1 _ W) $$ [HO HtB1 Hrs1 Hag1]
  · iframe HR HO HtB1 Hrs1 Hag1
  iintro HO

  sx
  rw [peel_sig]
  iapply (step_signal m ρ K c 15 (by decide) 1 rfl _ (dev2_eq c) frs15 fag15 _ W) $$ [HO HtB15 Hrs15 Hag15]
  · iframe HR HO HtB15 Hrs15 Hag15
  iintro HO

  sx
  rw [peel_sig]
  iapply (step_signal m ρ K c 2 (by decide) 14 rfl _ (dev3_eq c) frs2 fag2 _ W) $$ [HO HtB2 Hrs2 Hag2]
  · iframe HR HO HtB2 Hrs2 Hag2
  iintro HO

  sx
  rw [peel_sig]
  iapply (step_signal m ρ K c 14 (by decide) 2 rfl _ (dev4_eq c) frs14 fag14 _ W) $$ [HO HtB14 Hrs14 Hag14]
  · iframe HR HO HtB14 Hrs14 Hag14
  iintro HO

  sx
  rw [peel_sig]
  iapply (step_signal m ρ K c 3 (by decide) 13 rfl _ (dev5_eq c) frs3 fag3 _ W) $$ [HO HtB3 Hrs3 Hag3]
  · iframe HR HO HtB3 Hrs3 Hag3
  iintro HO

  sx
  rw [peel_sig]
  iapply (step_signal m ρ K c 13 (by decide) 3 rfl _ (dev6_eq c) frs13 fag13 _ W) $$ [HO HtB13 Hrs13 Hag13]
  · iframe HR HO HtB13 Hrs13 Hag13
  iintro HO

  sx
  rw [peel_sig]
  iapply (step_signal m ρ K c 4 (by decide) 12 rfl _ (dev7_eq c) frs4 fag4 _ W) $$ [HO HtB4 Hrs4 Hag4]
  · iframe HR HO HtB4 Hrs4 Hag4
  iintro HO

  sx
  rw [peel_sig]
  iapply (step_signal m ρ K c 12 (by decide) 4 rfl _ (dev8_eq c) frs12 fag12 _ W) $$ [HO HtB12 Hrs12 Hag12]
  · iframe HR HO HtB12 Hrs12 Hag12
  iintro HO

  sx
  rw [peel_sig]
  iapply (step_signal m ρ K c 5 (by decide) 11 rfl _ (dev9_eq c) frs5 fag5 _ W) $$ [HO HtB5 Hrs5 Hag5]
  · iframe HR HO HtB5 Hrs5 Hag5
  iintro HO

  sx
  rw [peel_sig]
  iapply (step_signal m ρ K c 11 (by decide) 5 rfl _ (dev10_eq c) frs11 fag11 _ W) $$ [HO HtB11 Hrs11 Hag11]
  · iframe HR HO HtB11 Hrs11 Hag11
  iintro HO

  sx
  rw [peel_sig]
  iapply (step_signal m ρ K c 6 (by decide) 10 rfl _ (dev11_eq c) frs6 fag6 _ W) $$ [HO HtB6 Hrs6 Hag6]
  · iframe HR HO HtB6 Hrs6 Hag6
  iintro HO

  sx
  rw [peel_sig]
  iapply (step_signal m ρ K c 10 (by decide) 6 rfl _ (dev12_eq c) frs10 fag10 _ W) $$ [HO HtB10 Hrs10 Hag10]
  · iframe HR HO HtB10 Hrs10 Hag10
  iintro HO

  sx
  rw [peel_sig]
  iapply (step_signal m ρ K c 7 (by decide) 9 rfl _ (dev13_eq c) frs7 fag7 _ W) $$ [HO HtB7 Hrs7 Hag7]
  · iframe HR HO HtB7 Hrs7 Hag7
  iintro HO

  sx
  rw [peel_sig]
  iapply (step_signal m ρ K c 9 (by decide) 7 rfl _ (dev14_eq c) frs9 fag9 _ W) $$ [HO HtB9 Hrs9 Hag9]
  · iframe HR HO HtB9 Hrs9 Hag9
  iintro HO

  sx
  rw [peel_sig]
  iapply (step_signal m ρ K c 8 (by decide) 8 rfl _ (dev15_eq c) frs8 fag8 _ W) $$ [HO HtB8 Hrs8 Hag8]
  · iframe HR HO HtB8 Hrs8 Hag8
  iintro HO

  have hx : g0 = xC m ρ c := by rw [hg0]; unfold Dat.before; rw [if_pos (fetch0_0 t₀)]; rfl
  subst hx
  sx
  iapply (wp_load 𝒱₀ (c : Thread nD τ) none Set.univ (m := xM) (Finset.subset_univ _)) $$ Hx; iintro Hx
  rw [read_x]
  sx
  iapply (wp_load 𝒱₀ (c : Thread nD τ) none Set.univ (m := xbM) (Finset.subset_univ _)) $$ Hxb; iintro Hxb
  sx
  iapply (wp_store 𝒱₀ (c : Thread nD τ) none Set.univ (m := xbM) (r := Rect.unit (s := S512x512) ![0, 0] S512x512.size inb_S512x512_S512x512_0_0) (Mk := Finset.univ) (Finset.subset_univ _)) $$ Hxb; iintro Hxb
  rw [write_xb]
  ihave Hxs := (MF.xb_split c) $$ [Hxb]
  · iexact Hxb
  simp only [offs, bigSepL_cons_cons, bigSepL_singleton, sepL]
  icases Hxs with ⟨Hxown, Hsl1, Hsl15, Hsl2, Hsl14, Hsl3, Hsl13, Hsl4, Hsl12, Hsl5, Hsl11, Hsl6, Hsl10, Hsl7, Hsl9, Hsl8⟩

  sx
  iapply (step_barwait m ρ K c _ W) $$ [HcB HO HatB]
  · iframe HR HcB HO HatB
    iapply (Levels.mayWait_bar c); iexact Hlev
  iintro ⟨HO, HatB, Hbp⟩
  simp only [offs, bigSepL_cons_cons, bigSepL_singleton, sepL]
  unfold barPay
  simp only [opp_1, opp_2, opp_3, opp_4, opp_5, opp_6, opp_7, opp_8, opp_9, opp_10, opp_11, opp_12, opp_13, opp_14, opp_15]
  icases Hbp with ⟨⟨⟨%prs1, Hprs1⟩, ⟨%pag1, Hpag1⟩⟩, ⟨⟨%prs15, Hprs15⟩, ⟨%pag15, Hpag15⟩⟩, ⟨⟨%prs2, Hprs2⟩, ⟨%pag2, Hpag2⟩⟩, ⟨⟨%prs14, Hprs14⟩, ⟨%pag14, Hpag14⟩⟩, ⟨⟨%prs3, Hprs3⟩, ⟨%pag3, Hpag3⟩⟩, ⟨⟨%prs13, Hprs13⟩, ⟨%pag13, Hpag13⟩⟩, ⟨⟨%prs4, Hprs4⟩, ⟨%pag4, Hpag4⟩⟩, ⟨⟨%prs12, Hprs12⟩, ⟨%pag12, Hpag12⟩⟩, ⟨⟨%prs5, Hprs5⟩, ⟨%pag5, Hpag5⟩⟩, ⟨⟨%prs11, Hprs11⟩, ⟨%pag11, Hpag11⟩⟩, ⟨⟨%prs6, Hprs6⟩, ⟨%pag6, Hpag6⟩⟩, ⟨⟨%prs10, Hprs10⟩, ⟨%pag10, Hpag10⟩⟩, ⟨⟨%prs7, Hprs7⟩, ⟨%pag7, Hpag7⟩⟩, ⟨⟨%prs9, Hprs9⟩, ⟨%pag9, Hpag9⟩⟩, ⟨⟨%prs8, Hprs8⟩, ⟨%pag8, Hpag8⟩⟩⟩

  sx
  rw [peel_rs]
  iapply (step_rsSend m ρ K c 1 (by decide) 15 rfl _ (dev16_eq c) (VF.rw_slot rsM _ _) prs1 _ (insert (SemLoc.reg barS, ()) W)) $$ [Hsl1 Hprs1 HO HtS1 HtR1]
  · iframe HR Hsl1 Hprs1 HO HtS1 HtR1
  iintro ⟨HcS1, HO⟩

  sx
  rw [peel_rs]
  iapply (step_rsSend m ρ K c 15 (by decide) 1 rfl _ (dev17_eq c) (VF.rw_slot rsM _ _) prs15 _ (insert (SemLoc.reg barS, ()) W)) $$ [Hsl15 Hprs15 HO HtS15 HtR15]
  · iframe HR Hsl15 Hprs15 HO HtS15 HtR15
  iintro ⟨HcS15, HO⟩

  sx
  rw [peel_rs]
  iapply (step_rsSend m ρ K c 2 (by decide) 14 rfl _ (dev18_eq c) (VF.rw_slot rsM _ _) prs2 _ (insert (SemLoc.reg barS, ()) W)) $$ [Hsl2 Hprs2 HO HtS2 HtR2]
  · iframe HR Hsl2 Hprs2 HO HtS2 HtR2
  iintro ⟨HcS2, HO⟩

  sx
  rw [peel_rs]
  iapply (step_rsSend m ρ K c 14 (by decide) 2 rfl _ (dev19_eq c) (VF.rw_slot rsM _ _) prs14 _ (insert (SemLoc.reg barS, ()) W)) $$ [Hsl14 Hprs14 HO HtS14 HtR14]
  · iframe HR Hsl14 Hprs14 HO HtS14 HtR14
  iintro ⟨HcS14, HO⟩

  sx
  rw [peel_rs]
  iapply (step_rsSend m ρ K c 3 (by decide) 13 rfl _ (dev20_eq c) (VF.rw_slot rsM _ _) prs3 _ (insert (SemLoc.reg barS, ()) W)) $$ [Hsl3 Hprs3 HO HtS3 HtR3]
  · iframe HR Hsl3 Hprs3 HO HtS3 HtR3
  iintro ⟨HcS3, HO⟩

  sx
  rw [peel_rs]
  iapply (step_rsSend m ρ K c 13 (by decide) 3 rfl _ (dev21_eq c) (VF.rw_slot rsM _ _) prs13 _ (insert (SemLoc.reg barS, ()) W)) $$ [Hsl13 Hprs13 HO HtS13 HtR13]
  · iframe HR Hsl13 Hprs13 HO HtS13 HtR13
  iintro ⟨HcS13, HO⟩

  sx
  rw [peel_rs]
  iapply (step_rsSend m ρ K c 4 (by decide) 12 rfl _ (dev22_eq c) (VF.rw_slot rsM _ _) prs4 _ (insert (SemLoc.reg barS, ()) W)) $$ [Hsl4 Hprs4 HO HtS4 HtR4]
  · iframe HR Hsl4 Hprs4 HO HtS4 HtR4
  iintro ⟨HcS4, HO⟩

  sx
  rw [peel_rs]
  iapply (step_rsSend m ρ K c 12 (by decide) 4 rfl _ (dev23_eq c) (VF.rw_slot rsM _ _) prs12 _ (insert (SemLoc.reg barS, ()) W)) $$ [Hsl12 Hprs12 HO HtS12 HtR12]
  · iframe HR Hsl12 Hprs12 HO HtS12 HtR12
  iintro ⟨HcS12, HO⟩

  sx
  rw [peel_rs]
  iapply (step_rsSend m ρ K c 5 (by decide) 11 rfl _ (dev24_eq c) (VF.rw_slot rsM _ _) prs5 _ (insert (SemLoc.reg barS, ()) W)) $$ [Hsl5 Hprs5 HO HtS5 HtR5]
  · iframe HR Hsl5 Hprs5 HO HtS5 HtR5
  iintro ⟨HcS5, HO⟩

  sx
  rw [peel_rs]
  iapply (step_rsSend m ρ K c 11 (by decide) 5 rfl _ (dev25_eq c) (VF.rw_slot rsM _ _) prs11 _ (insert (SemLoc.reg barS, ()) W)) $$ [Hsl11 Hprs11 HO HtS11 HtR11]
  · iframe HR Hsl11 Hprs11 HO HtS11 HtR11
  iintro ⟨HcS11, HO⟩

  sx
  rw [peel_rs]
  iapply (step_rsSend m ρ K c 6 (by decide) 10 rfl _ (dev26_eq c) (VF.rw_slot rsM _ _) prs6 _ (insert (SemLoc.reg barS, ()) W)) $$ [Hsl6 Hprs6 HO HtS6 HtR6]
  · iframe HR Hsl6 Hprs6 HO HtS6 HtR6
  iintro ⟨HcS6, HO⟩

  sx
  rw [peel_rs]
  iapply (step_rsSend m ρ K c 10 (by decide) 6 rfl _ (dev27_eq c) (VF.rw_slot rsM _ _) prs10 _ (insert (SemLoc.reg barS, ()) W)) $$ [Hsl10 Hprs10 HO HtS10 HtR10]
  · iframe HR Hsl10 Hprs10 HO HtS10 HtR10
  iintro ⟨HcS10, HO⟩

  sx
  rw [peel_rs]
  iapply (step_rsSend m ρ K c 7 (by decide) 9 rfl _ (dev28_eq c) (VF.rw_slot rsM _ _) prs7 _ (insert (SemLoc.reg barS, ()) W)) $$ [Hsl7 Hprs7 HO HtS7 HtR7]
  · iframe HR Hsl7 Hprs7 HO HtS7 HtR7
  iintro ⟨HcS7, HO⟩

  sx
  rw [peel_rs]
  iapply (step_rsSend m ρ K c 9 (by decide) 7 rfl _ (dev29_eq c) (VF.rw_slot rsM _ _) prs9 _ (insert (SemLoc.reg barS, ()) W)) $$ [Hsl9 Hprs9 HO HtS9 HtR9]
  · iframe HR Hsl9 Hprs9 HO HtS9 HtR9
  iintro ⟨HcS9, HO⟩

  sx
  rw [peel_rs]
  iapply (step_rsSend m ρ K c 8 (by decide) 8 rfl _ (dev30_eq c) (VF.rw_slot rsM _ _) prs8 _ (insert (SemLoc.reg barS, ()) W)) $$ [Hsl8 Hprs8 HO HtS8 HtR8]
  · iframe HR Hsl8 Hprs8 HO HtS8 HtR8
  iintro ⟨HcS8, HO⟩

  sx
  iapply (wp_load 𝒱₀ (c : Thread nD τ) none Set.univ (m := xM) (Finset.subset_univ _)) $$ Hx; iintro Hx

  sx
  iapply (wait_rsRecv m ρ K c 15 (by decide) _ _ (by rfl)) $$ [HcR1 HO HpR1]
  · iframe HR HcR1 HO HpR1
    iapply (Levels.mayWait_rsRecv c 15); iexact Hlev
  iintro ⟨HO, HzR1, Hpay'⟩
  unfold rsRecvPay
  icases Hpay' with ⟨%gr15, Hgr15, %hgr15⟩
  sx
  iapply (wp_load 𝒱₀ (c : Thread nD τ) none Set.univ (m := rsM) (MF.load_sub rsM 15)) $$ [Hgr15]
  · unfold slotPts; iexact Hgr15
  iintro Hgr15
  rw [MF.load_slot rsM 15 gr15, hgr15]

  sx
  iapply (wait_rsRecv m ρ K c 1 (by decide) _ _ (by rfl)) $$ [HcR15 HO HpR15]
  · iframe HR HcR15 HO HpR15
    iapply (Levels.mayWait_rsRecv c 1); iexact Hlev
  iintro ⟨HO, HzR15, Hpay'⟩
  unfold rsRecvPay
  icases Hpay' with ⟨%gr1, Hgr1, %hgr1⟩
  sx
  iapply (wp_load 𝒱₀ (c : Thread nD τ) none Set.univ (m := rsM) (MF.load_sub rsM 1)) $$ [Hgr1]
  · unfold slotPts; iexact Hgr1
  iintro Hgr1
  rw [MF.load_slot rsM 1 gr1, hgr1]

  sx
  iapply (wait_rsRecv m ρ K c 14 (by decide) _ _ (by rfl)) $$ [HcR2 HO HpR2]
  · iframe HR HcR2 HO HpR2
    iapply (Levels.mayWait_rsRecv c 14); iexact Hlev
  iintro ⟨HO, HzR2, Hpay'⟩
  unfold rsRecvPay
  icases Hpay' with ⟨%gr14, Hgr14, %hgr14⟩
  sx
  iapply (wp_load 𝒱₀ (c : Thread nD τ) none Set.univ (m := rsM) (MF.load_sub rsM 14)) $$ [Hgr14]
  · unfold slotPts; iexact Hgr14
  iintro Hgr14
  rw [MF.load_slot rsM 14 gr14, hgr14]

  sx
  iapply (wait_rsRecv m ρ K c 2 (by decide) _ _ (by rfl)) $$ [HcR14 HO HpR14]
  · iframe HR HcR14 HO HpR14
    iapply (Levels.mayWait_rsRecv c 2); iexact Hlev
  iintro ⟨HO, HzR14, Hpay'⟩
  unfold rsRecvPay
  icases Hpay' with ⟨%gr2, Hgr2, %hgr2⟩
  sx
  iapply (wp_load 𝒱₀ (c : Thread nD τ) none Set.univ (m := rsM) (MF.load_sub rsM 2)) $$ [Hgr2]
  · unfold slotPts; iexact Hgr2
  iintro Hgr2
  rw [MF.load_slot rsM 2 gr2, hgr2]

  sx
  iapply (wait_rsRecv m ρ K c 13 (by decide) _ _ (by rfl)) $$ [HcR3 HO HpR3]
  · iframe HR HcR3 HO HpR3
    iapply (Levels.mayWait_rsRecv c 13); iexact Hlev
  iintro ⟨HO, HzR3, Hpay'⟩
  unfold rsRecvPay
  icases Hpay' with ⟨%gr13, Hgr13, %hgr13⟩
  sx
  iapply (wp_load 𝒱₀ (c : Thread nD τ) none Set.univ (m := rsM) (MF.load_sub rsM 13)) $$ [Hgr13]
  · unfold slotPts; iexact Hgr13
  iintro Hgr13
  rw [MF.load_slot rsM 13 gr13, hgr13]

  sx
  iapply (wait_rsRecv m ρ K c 3 (by decide) _ _ (by rfl)) $$ [HcR13 HO HpR13]
  · iframe HR HcR13 HO HpR13
    iapply (Levels.mayWait_rsRecv c 3); iexact Hlev
  iintro ⟨HO, HzR13, Hpay'⟩
  unfold rsRecvPay
  icases Hpay' with ⟨%gr3, Hgr3, %hgr3⟩
  sx
  iapply (wp_load 𝒱₀ (c : Thread nD τ) none Set.univ (m := rsM) (MF.load_sub rsM 3)) $$ [Hgr3]
  · unfold slotPts; iexact Hgr3
  iintro Hgr3
  rw [MF.load_slot rsM 3 gr3, hgr3]

  sx
  iapply (wait_rsRecv m ρ K c 12 (by decide) _ _ (by rfl)) $$ [HcR4 HO HpR4]
  · iframe HR HcR4 HO HpR4
    iapply (Levels.mayWait_rsRecv c 12); iexact Hlev
  iintro ⟨HO, HzR4, Hpay'⟩
  unfold rsRecvPay
  icases Hpay' with ⟨%gr12, Hgr12, %hgr12⟩
  sx
  iapply (wp_load 𝒱₀ (c : Thread nD τ) none Set.univ (m := rsM) (MF.load_sub rsM 12)) $$ [Hgr12]
  · unfold slotPts; iexact Hgr12
  iintro Hgr12
  rw [MF.load_slot rsM 12 gr12, hgr12]

  sx
  iapply (wait_rsRecv m ρ K c 4 (by decide) _ _ (by rfl)) $$ [HcR12 HO HpR12]
  · iframe HR HcR12 HO HpR12
    iapply (Levels.mayWait_rsRecv c 4); iexact Hlev
  iintro ⟨HO, HzR12, Hpay'⟩
  unfold rsRecvPay
  icases Hpay' with ⟨%gr4, Hgr4, %hgr4⟩
  sx
  iapply (wp_load 𝒱₀ (c : Thread nD τ) none Set.univ (m := rsM) (MF.load_sub rsM 4)) $$ [Hgr4]
  · unfold slotPts; iexact Hgr4
  iintro Hgr4
  rw [MF.load_slot rsM 4 gr4, hgr4]

  sx
  iapply (wait_rsRecv m ρ K c 11 (by decide) _ _ (by rfl)) $$ [HcR5 HO HpR5]
  · iframe HR HcR5 HO HpR5
    iapply (Levels.mayWait_rsRecv c 11); iexact Hlev
  iintro ⟨HO, HzR5, Hpay'⟩
  unfold rsRecvPay
  icases Hpay' with ⟨%gr11, Hgr11, %hgr11⟩
  sx
  iapply (wp_load 𝒱₀ (c : Thread nD τ) none Set.univ (m := rsM) (MF.load_sub rsM 11)) $$ [Hgr11]
  · unfold slotPts; iexact Hgr11
  iintro Hgr11
  rw [MF.load_slot rsM 11 gr11, hgr11]

  sx
  iapply (wait_rsRecv m ρ K c 5 (by decide) _ _ (by rfl)) $$ [HcR11 HO HpR11]
  · iframe HR HcR11 HO HpR11
    iapply (Levels.mayWait_rsRecv c 5); iexact Hlev
  iintro ⟨HO, HzR11, Hpay'⟩
  unfold rsRecvPay
  icases Hpay' with ⟨%gr5, Hgr5, %hgr5⟩
  sx
  iapply (wp_load 𝒱₀ (c : Thread nD τ) none Set.univ (m := rsM) (MF.load_sub rsM 5)) $$ [Hgr5]
  · unfold slotPts; iexact Hgr5
  iintro Hgr5
  rw [MF.load_slot rsM 5 gr5, hgr5]

  sx
  iapply (wait_rsRecv m ρ K c 10 (by decide) _ _ (by rfl)) $$ [HcR6 HO HpR6]
  · iframe HR HcR6 HO HpR6
    iapply (Levels.mayWait_rsRecv c 10); iexact Hlev
  iintro ⟨HO, HzR6, Hpay'⟩
  unfold rsRecvPay
  icases Hpay' with ⟨%gr10, Hgr10, %hgr10⟩
  sx
  iapply (wp_load 𝒱₀ (c : Thread nD τ) none Set.univ (m := rsM) (MF.load_sub rsM 10)) $$ [Hgr10]
  · unfold slotPts; iexact Hgr10
  iintro Hgr10
  rw [MF.load_slot rsM 10 gr10, hgr10]

  sx
  iapply (wait_rsRecv m ρ K c 6 (by decide) _ _ (by rfl)) $$ [HcR10 HO HpR10]
  · iframe HR HcR10 HO HpR10
    iapply (Levels.mayWait_rsRecv c 6); iexact Hlev
  iintro ⟨HO, HzR10, Hpay'⟩
  unfold rsRecvPay
  icases Hpay' with ⟨%gr6, Hgr6, %hgr6⟩
  sx
  iapply (wp_load 𝒱₀ (c : Thread nD τ) none Set.univ (m := rsM) (MF.load_sub rsM 6)) $$ [Hgr6]
  · unfold slotPts; iexact Hgr6
  iintro Hgr6
  rw [MF.load_slot rsM 6 gr6, hgr6]

  sx
  iapply (wait_rsRecv m ρ K c 9 (by decide) _ _ (by rfl)) $$ [HcR7 HO HpR7]
  · iframe HR HcR7 HO HpR7
    iapply (Levels.mayWait_rsRecv c 9); iexact Hlev
  iintro ⟨HO, HzR7, Hpay'⟩
  unfold rsRecvPay
  icases Hpay' with ⟨%gr9, Hgr9, %hgr9⟩
  sx
  iapply (wp_load 𝒱₀ (c : Thread nD τ) none Set.univ (m := rsM) (MF.load_sub rsM 9)) $$ [Hgr9]
  · unfold slotPts; iexact Hgr9
  iintro Hgr9
  rw [MF.load_slot rsM 9 gr9, hgr9]

  sx
  iapply (wait_rsRecv m ρ K c 7 (by decide) _ _ (by rfl)) $$ [HcR9 HO HpR9]
  · iframe HR HcR9 HO HpR9
    iapply (Levels.mayWait_rsRecv c 7); iexact Hlev
  iintro ⟨HO, HzR9, Hpay'⟩
  unfold rsRecvPay
  icases Hpay' with ⟨%gr7, Hgr7, %hgr7⟩
  sx
  iapply (wp_load 𝒱₀ (c : Thread nD τ) none Set.univ (m := rsM) (MF.load_sub rsM 7)) $$ [Hgr7]
  · unfold slotPts; iexact Hgr7
  iintro Hgr7
  rw [MF.load_slot rsM 7 gr7, hgr7]

  sx
  iapply (wait_rsRecv m ρ K c 8 (by decide) _ _ (by rfl)) $$ [HcR8 HO HpR8]
  · iframe HR HcR8 HO HpR8
    iapply (Levels.mayWait_rsRecv c 8); iexact Hlev
  iintro ⟨HO, HzR8, Hpay'⟩
  unfold rsRecvPay
  icases Hpay' with ⟨%gr8, Hgr8, %hgr8⟩
  sx
  iapply (wp_load 𝒱₀ (c : Thread nD τ) none Set.univ (m := rsM) (MF.load_sub rsM 8)) $$ [Hgr8]
  · unfold slotPts; iexact Hgr8
  iintro Hgr8
  rw [MF.load_slot rsM 8 gr8, hgr8]

  sx
  iapply (wp_load 𝒱₀ (c : Thread nD τ) none Set.univ (m := agsM) (Finset.subset_univ _)) $$ Hags; iintro Hags
  sx
  iapply (wp_store 𝒱₀ (c : Thread nD τ) none Set.univ (m := agsM) (r := Rect.unit (s := S32x512) ![0, 0] S32x512.size inb_S32x512_S32x512_0_0) (Mk := Finset.univ) (Finset.subset_univ _)) $$ Hags; iintro Hags
  rw [write_ags]
  ihave Hsh := (MF.ags_split c) $$ [Hags]
  · iexact Hags
  simp only [bigSepL_cons_cons, bigSepL_singleton, sepL]
  icases Hsh with ⟨⟨Hpc0, Hpc1, Hpc2, Hpc3, Hpc4, Hpc5, Hpc6, Hpc7, Hpc8, Hpc9, Hpc10, Hpc11, Hpc12, Hpc13, Hpc14⟩, Hrem⟩

  sx
  rw [peel_ag]
  iapply (step_agSend m ρ K c 1 (by decide) 15 rfl _ (dev31_eq c) (VF.rw_slot agM _ _) 0 (by decide) pag1 _ _) $$ [Hpc0 Hpag1 HO HtAS1 HtAR1]
  · iframe HR Hpc0 Hpag1 HO HtAS1 HtAR1
  iintro ⟨HcAS1, HO⟩

  sx
  rw [peel_ag]
  iapply (step_agSend m ρ K c 15 (by decide) 1 rfl _ (dev32_eq c) (VF.rw_slot agM _ _) 1 (by decide) pag15 _ _) $$ [Hpc1 Hpag15 HO HtAS15 HtAR15]
  · iframe HR Hpc1 Hpag15 HO HtAS15 HtAR15
  iintro ⟨HcAS15, HO⟩

  sx
  rw [peel_ag]
  iapply (step_agSend m ρ K c 2 (by decide) 14 rfl _ (dev33_eq c) (VF.rw_slot agM _ _) 2 (by decide) pag2 _ _) $$ [Hpc2 Hpag2 HO HtAS2 HtAR2]
  · iframe HR Hpc2 Hpag2 HO HtAS2 HtAR2
  iintro ⟨HcAS2, HO⟩

  sx
  rw [peel_ag]
  iapply (step_agSend m ρ K c 14 (by decide) 2 rfl _ (dev34_eq c) (VF.rw_slot agM _ _) 3 (by decide) pag14 _ _) $$ [Hpc3 Hpag14 HO HtAS14 HtAR14]
  · iframe HR Hpc3 Hpag14 HO HtAS14 HtAR14
  iintro ⟨HcAS14, HO⟩

  sx
  rw [peel_ag]
  iapply (step_agSend m ρ K c 3 (by decide) 13 rfl _ (dev35_eq c) (VF.rw_slot agM _ _) 4 (by decide) pag3 _ _) $$ [Hpc4 Hpag3 HO HtAS3 HtAR3]
  · iframe HR Hpc4 Hpag3 HO HtAS3 HtAR3
  iintro ⟨HcAS3, HO⟩

  sx
  rw [peel_ag]
  iapply (step_agSend m ρ K c 13 (by decide) 3 rfl _ (dev36_eq c) (VF.rw_slot agM _ _) 5 (by decide) pag13 _ _) $$ [Hpc5 Hpag13 HO HtAS13 HtAR13]
  · iframe HR Hpc5 Hpag13 HO HtAS13 HtAR13
  iintro ⟨HcAS13, HO⟩

  sx
  rw [peel_ag]
  iapply (step_agSend m ρ K c 4 (by decide) 12 rfl _ (dev37_eq c) (VF.rw_slot agM _ _) 6 (by decide) pag4 _ _) $$ [Hpc6 Hpag4 HO HtAS4 HtAR4]
  · iframe HR Hpc6 Hpag4 HO HtAS4 HtAR4
  iintro ⟨HcAS4, HO⟩

  sx
  rw [peel_ag]
  iapply (step_agSend m ρ K c 12 (by decide) 4 rfl _ (dev38_eq c) (VF.rw_slot agM _ _) 7 (by decide) pag12 _ _) $$ [Hpc7 Hpag12 HO HtAS12 HtAR12]
  · iframe HR Hpc7 Hpag12 HO HtAS12 HtAR12
  iintro ⟨HcAS12, HO⟩

  sx
  rw [peel_ag]
  iapply (step_agSend m ρ K c 5 (by decide) 11 rfl _ (dev39_eq c) (VF.rw_slot agM _ _) 8 (by decide) pag5 _ _) $$ [Hpc8 Hpag5 HO HtAS5 HtAR5]
  · iframe HR Hpc8 Hpag5 HO HtAS5 HtAR5
  iintro ⟨HcAS5, HO⟩

  sx
  rw [peel_ag]
  iapply (step_agSend m ρ K c 11 (by decide) 5 rfl _ (dev40_eq c) (VF.rw_slot agM _ _) 9 (by decide) pag11 _ _) $$ [Hpc9 Hpag11 HO HtAS11 HtAR11]
  · iframe HR Hpc9 Hpag11 HO HtAS11 HtAR11
  iintro ⟨HcAS11, HO⟩

  sx
  rw [peel_ag]
  iapply (step_agSend m ρ K c 6 (by decide) 10 rfl _ (dev41_eq c) (VF.rw_slot agM _ _) 10 (by decide) pag6 _ _) $$ [Hpc10 Hpag6 HO HtAS6 HtAR6]
  · iframe HR Hpc10 Hpag6 HO HtAS6 HtAR6
  iintro ⟨HcAS6, HO⟩

  sx
  rw [peel_ag]
  iapply (step_agSend m ρ K c 10 (by decide) 6 rfl _ (dev42_eq c) (VF.rw_slot agM _ _) 11 (by decide) pag10 _ _) $$ [Hpc11 Hpag10 HO HtAS10 HtAR10]
  · iframe HR Hpc11 Hpag10 HO HtAS10 HtAR10
  iintro ⟨HcAS10, HO⟩

  sx
  rw [peel_ag]
  iapply (step_agSend m ρ K c 7 (by decide) 9 rfl _ (dev43_eq c) (VF.rw_slot agM _ _) 12 (by decide) pag7 _ _) $$ [Hpc12 Hpag7 HO HtAS7 HtAR7]
  · iframe HR Hpc12 Hpag7 HO HtAS7 HtAR7
  iintro ⟨HcAS7, HO⟩

  sx
  rw [peel_ag]
  iapply (step_agSend m ρ K c 9 (by decide) 7 rfl _ (dev44_eq c) (VF.rw_slot agM _ _) 13 (by decide) pag9 _ _) $$ [Hpc13 Hpag9 HO HtAS9 HtAR9]
  · iframe HR Hpc13 Hpag9 HO HtAS9 HtAR9
  iintro ⟨HcAS9, HO⟩

  sx
  rw [peel_ag]
  iapply (step_agSend m ρ K c 8 (by decide) 8 rfl _ (dev45_eq c) (VF.rw_slot agM _ _) 14 (by decide) pag8 _ _) $$ [Hpc14 Hpag8 HO HtAS8 HtAR8]
  · iframe HR Hpc14 Hpag8 HO HtAS8 HtAR8
  iintro ⟨HcAS8, HO⟩

  sx
  iapply (wp_load 𝒱₀ (c : Thread nD τ) none Set.univ (m := oM) (Finset.subset_univ _)) $$ Hout; iintro Hout
  sx
  iapply (wp_store 𝒱₀ (c : Thread nD τ) none Set.univ (m := oM) (r := Rect.unit (s := S512x512) (k0_off2 c) S32x512.size (k0_off2_inb c)) (Mk := Finset.univ) (Finset.subset_univ _)) $$ Hout; iintro Hout

  sx
  iapply (wait_agRecv m ρ K c 15 (by decide) _ _ (by rfl)) $$ [HcAR1 HO HpAR1]
  · iframe HR HcAR1 HO HpAR1
    iapply (Levels.mayWait_nil c _); iexact Hlev
  iintro ⟨HO, HzAR1, Hpay'⟩
  unfold agRecvPay
  icases Hpay' with ⟨%ga15, Hga15, %hga15⟩
  sx
  iapply (wp_load 𝒱₀ (c : Thread nD τ) none Set.univ (m := agM) (MF.load_sub agM 15)) $$ [Hga15]
  · unfold slotPts; iexact Hga15
  iintro Hga15
  rw [MF.load_slot agM 15 ga15, hga15]
  sx
  iapply (wp_load 𝒱₀ (c : Thread nD τ) none Set.univ (m := oM) (Finset.subset_univ _)) $$ Hout; iintro Hout
  sx
  iapply (wp_store 𝒱₀ (c : Thread nD τ) none Set.univ (m := oM) (r := Rect.unit (s := S512x512) (k0_off3 c 15#32) S32x512.size (k0_off3_inb c 14)) (Mk := Finset.univ) (Finset.subset_univ _)) $$ Hout; iintro Hout

  sx
  iapply (wait_agRecv m ρ K c 1 (by decide) _ _ (by rfl)) $$ [HcAR15 HO HpAR15]
  · iframe HR HcAR15 HO HpAR15
    iapply (Levels.mayWait_nil c _); iexact Hlev
  iintro ⟨HO, HzAR15, Hpay'⟩
  unfold agRecvPay
  icases Hpay' with ⟨%ga1, Hga1, %hga1⟩
  sx
  iapply (wp_load 𝒱₀ (c : Thread nD τ) none Set.univ (m := agM) (MF.load_sub agM 1)) $$ [Hga1]
  · unfold slotPts; iexact Hga1
  iintro Hga1
  rw [MF.load_slot agM 1 ga1, hga1]
  sx
  iapply (wp_load 𝒱₀ (c : Thread nD τ) none Set.univ (m := oM) (Finset.subset_univ _)) $$ Hout; iintro Hout
  sx
  iapply (wp_store 𝒱₀ (c : Thread nD τ) none Set.univ (m := oM) (r := Rect.unit (s := S512x512) (k0_off3 c 1#32) S32x512.size (k0_off3_inb c 0)) (Mk := Finset.univ) (Finset.subset_univ _)) $$ Hout; iintro Hout

  sx
  iapply (wait_agRecv m ρ K c 14 (by decide) _ _ (by rfl)) $$ [HcAR2 HO HpAR2]
  · iframe HR HcAR2 HO HpAR2
    iapply (Levels.mayWait_nil c _); iexact Hlev
  iintro ⟨HO, HzAR2, Hpay'⟩
  unfold agRecvPay
  icases Hpay' with ⟨%ga14, Hga14, %hga14⟩
  sx
  iapply (wp_load 𝒱₀ (c : Thread nD τ) none Set.univ (m := agM) (MF.load_sub agM 14)) $$ [Hga14]
  · unfold slotPts; iexact Hga14
  iintro Hga14
  rw [MF.load_slot agM 14 ga14, hga14]
  sx
  iapply (wp_load 𝒱₀ (c : Thread nD τ) none Set.univ (m := oM) (Finset.subset_univ _)) $$ Hout; iintro Hout
  sx
  iapply (wp_store 𝒱₀ (c : Thread nD τ) none Set.univ (m := oM) (r := Rect.unit (s := S512x512) (k0_off3 c 14#32) S32x512.size (k0_off3_inb c 13)) (Mk := Finset.univ) (Finset.subset_univ _)) $$ Hout; iintro Hout

  sx
  iapply (wait_agRecv m ρ K c 2 (by decide) _ _ (by rfl)) $$ [HcAR14 HO HpAR14]
  · iframe HR HcAR14 HO HpAR14
    iapply (Levels.mayWait_nil c _); iexact Hlev
  iintro ⟨HO, HzAR14, Hpay'⟩
  unfold agRecvPay
  icases Hpay' with ⟨%ga2, Hga2, %hga2⟩
  sx
  iapply (wp_load 𝒱₀ (c : Thread nD τ) none Set.univ (m := agM) (MF.load_sub agM 2)) $$ [Hga2]
  · unfold slotPts; iexact Hga2
  iintro Hga2
  rw [MF.load_slot agM 2 ga2, hga2]
  sx
  iapply (wp_load 𝒱₀ (c : Thread nD τ) none Set.univ (m := oM) (Finset.subset_univ _)) $$ Hout; iintro Hout
  sx
  iapply (wp_store 𝒱₀ (c : Thread nD τ) none Set.univ (m := oM) (r := Rect.unit (s := S512x512) (k0_off3 c 2#32) S32x512.size (k0_off3_inb c 1)) (Mk := Finset.univ) (Finset.subset_univ _)) $$ Hout; iintro Hout

  sx
  iapply (wait_agRecv m ρ K c 13 (by decide) _ _ (by rfl)) $$ [HcAR3 HO HpAR3]
  · iframe HR HcAR3 HO HpAR3
    iapply (Levels.mayWait_nil c _); iexact Hlev
  iintro ⟨HO, HzAR3, Hpay'⟩
  unfold agRecvPay
  icases Hpay' with ⟨%ga13, Hga13, %hga13⟩
  sx
  iapply (wp_load 𝒱₀ (c : Thread nD τ) none Set.univ (m := agM) (MF.load_sub agM 13)) $$ [Hga13]
  · unfold slotPts; iexact Hga13
  iintro Hga13
  rw [MF.load_slot agM 13 ga13, hga13]
  sx
  iapply (wp_load 𝒱₀ (c : Thread nD τ) none Set.univ (m := oM) (Finset.subset_univ _)) $$ Hout; iintro Hout
  sx
  iapply (wp_store 𝒱₀ (c : Thread nD τ) none Set.univ (m := oM) (r := Rect.unit (s := S512x512) (k0_off3 c 13#32) S32x512.size (k0_off3_inb c 12)) (Mk := Finset.univ) (Finset.subset_univ _)) $$ Hout; iintro Hout

  sx
  iapply (wait_agRecv m ρ K c 3 (by decide) _ _ (by rfl)) $$ [HcAR13 HO HpAR13]
  · iframe HR HcAR13 HO HpAR13
    iapply (Levels.mayWait_nil c _); iexact Hlev
  iintro ⟨HO, HzAR13, Hpay'⟩
  unfold agRecvPay
  icases Hpay' with ⟨%ga3, Hga3, %hga3⟩
  sx
  iapply (wp_load 𝒱₀ (c : Thread nD τ) none Set.univ (m := agM) (MF.load_sub agM 3)) $$ [Hga3]
  · unfold slotPts; iexact Hga3
  iintro Hga3
  rw [MF.load_slot agM 3 ga3, hga3]
  sx
  iapply (wp_load 𝒱₀ (c : Thread nD τ) none Set.univ (m := oM) (Finset.subset_univ _)) $$ Hout; iintro Hout
  sx
  iapply (wp_store 𝒱₀ (c : Thread nD τ) none Set.univ (m := oM) (r := Rect.unit (s := S512x512) (k0_off3 c 3#32) S32x512.size (k0_off3_inb c 2)) (Mk := Finset.univ) (Finset.subset_univ _)) $$ Hout; iintro Hout

  sx
  iapply (wait_agRecv m ρ K c 12 (by decide) _ _ (by rfl)) $$ [HcAR4 HO HpAR4]
  · iframe HR HcAR4 HO HpAR4
    iapply (Levels.mayWait_nil c _); iexact Hlev
  iintro ⟨HO, HzAR4, Hpay'⟩
  unfold agRecvPay
  icases Hpay' with ⟨%ga12, Hga12, %hga12⟩
  sx
  iapply (wp_load 𝒱₀ (c : Thread nD τ) none Set.univ (m := agM) (MF.load_sub agM 12)) $$ [Hga12]
  · unfold slotPts; iexact Hga12
  iintro Hga12
  rw [MF.load_slot agM 12 ga12, hga12]
  sx
  iapply (wp_load 𝒱₀ (c : Thread nD τ) none Set.univ (m := oM) (Finset.subset_univ _)) $$ Hout; iintro Hout
  sx
  iapply (wp_store 𝒱₀ (c : Thread nD τ) none Set.univ (m := oM) (r := Rect.unit (s := S512x512) (k0_off3 c 12#32) S32x512.size (k0_off3_inb c 11)) (Mk := Finset.univ) (Finset.subset_univ _)) $$ Hout; iintro Hout

  sx
  iapply (wait_agRecv m ρ K c 4 (by decide) _ _ (by rfl)) $$ [HcAR12 HO HpAR12]
  · iframe HR HcAR12 HO HpAR12
    iapply (Levels.mayWait_nil c _); iexact Hlev
  iintro ⟨HO, HzAR12, Hpay'⟩
  unfold agRecvPay
  icases Hpay' with ⟨%ga4, Hga4, %hga4⟩
  sx
  iapply (wp_load 𝒱₀ (c : Thread nD τ) none Set.univ (m := agM) (MF.load_sub agM 4)) $$ [Hga4]
  · unfold slotPts; iexact Hga4
  iintro Hga4
  rw [MF.load_slot agM 4 ga4, hga4]
  sx
  iapply (wp_load 𝒱₀ (c : Thread nD τ) none Set.univ (m := oM) (Finset.subset_univ _)) $$ Hout; iintro Hout
  sx
  first | (iapply (wp_store 𝒱₀ (c : Thread nD τ) none Set.univ (m := oM) (r := Rect.unit (s := S512x512) (k0_off3 c 4#32) S32x512.size (k0_off3_inb c 3)) (Mk := Finset.univ) (Finset.subset_univ _)) $$ Hout; iintro Hout) | skip

  sx
  iapply (wait_agRecv m ρ K c 11 (by decide) _ _ (by rfl)) $$ [HcAR5 HO HpAR5]
  · iframe HR HcAR5 HO HpAR5
    iapply (Levels.mayWait_nil c _); iexact Hlev
  iintro ⟨HO, HzAR5, Hpay'⟩
  unfold agRecvPay
  icases Hpay' with ⟨%ga11, Hga11, %hga11⟩
  sx
  iapply (wp_load 𝒱₀ (c : Thread nD τ) none Set.univ (m := agM) (MF.load_sub agM 11)) $$ [Hga11]
  · unfold slotPts; iexact Hga11
  iintro Hga11
  rw [MF.load_slot agM 11 ga11, hga11]
  sx
  iapply (wp_load 𝒱₀ (c : Thread nD τ) none Set.univ (m := oM) (Finset.subset_univ _)) $$ Hout; iintro Hout
  sx
  iapply (wp_store 𝒱₀ (c : Thread nD τ) none Set.univ (m := oM) (r := Rect.unit (s := S512x512) (k0_off3 c 11#32) S32x512.size (k0_off3_inb c 10)) (Mk := Finset.univ) (Finset.subset_univ _)) $$ Hout; iintro Hout

  sx
  iapply (wait_agRecv m ρ K c 5 (by decide) _ _ (by rfl)) $$ [HcAR11 HO HpAR11]
  · iframe HR HcAR11 HO HpAR11
    iapply (Levels.mayWait_nil c _); iexact Hlev
  iintro ⟨HO, HzAR11, Hpay'⟩
  unfold agRecvPay
  icases Hpay' with ⟨%ga5, Hga5, %hga5⟩
  sx
  iapply (wp_load 𝒱₀ (c : Thread nD τ) none Set.univ (m := agM) (MF.load_sub agM 5)) $$ [Hga5]
  · unfold slotPts; iexact Hga5
  iintro Hga5
  rw [MF.load_slot agM 5 ga5, hga5]
  sx
  iapply (wp_load 𝒱₀ (c : Thread nD τ) none Set.univ (m := oM) (Finset.subset_univ _)) $$ Hout; iintro Hout
  sx
  iapply (wp_store 𝒱₀ (c : Thread nD τ) none Set.univ (m := oM) (r := Rect.unit (s := S512x512) (k0_off3 c 5#32) S32x512.size (k0_off3_inb c 4)) (Mk := Finset.univ) (Finset.subset_univ _)) $$ Hout; iintro Hout

  sx
  iapply (wait_agRecv m ρ K c 10 (by decide) _ _ (by rfl)) $$ [HcAR6 HO HpAR6]
  · iframe HR HcAR6 HO HpAR6
    iapply (Levels.mayWait_nil c _); iexact Hlev
  iintro ⟨HO, HzAR6, Hpay'⟩
  unfold agRecvPay
  icases Hpay' with ⟨%ga10, Hga10, %hga10⟩
  sx
  iapply (wp_load 𝒱₀ (c : Thread nD τ) none Set.univ (m := agM) (MF.load_sub agM 10)) $$ [Hga10]
  · unfold slotPts; iexact Hga10
  iintro Hga10
  rw [MF.load_slot agM 10 ga10, hga10]
  sx
  iapply (wp_load 𝒱₀ (c : Thread nD τ) none Set.univ (m := oM) (Finset.subset_univ _)) $$ Hout; iintro Hout
  sx
  iapply (wp_store 𝒱₀ (c : Thread nD τ) none Set.univ (m := oM) (r := Rect.unit (s := S512x512) (k0_off3 c 10#32) S32x512.size (k0_off3_inb c 9)) (Mk := Finset.univ) (Finset.subset_univ _)) $$ Hout; iintro Hout

  sx
  iapply (wait_agRecv m ρ K c 6 (by decide) _ _ (by rfl)) $$ [HcAR10 HO HpAR10]
  · iframe HR HcAR10 HO HpAR10
    iapply (Levels.mayWait_nil c _); iexact Hlev
  iintro ⟨HO, HzAR10, Hpay'⟩
  unfold agRecvPay
  icases Hpay' with ⟨%ga6, Hga6, %hga6⟩
  sx
  iapply (wp_load 𝒱₀ (c : Thread nD τ) none Set.univ (m := agM) (MF.load_sub agM 6)) $$ [Hga6]
  · unfold slotPts; iexact Hga6
  iintro Hga6
  rw [MF.load_slot agM 6 ga6, hga6]
  sx
  iapply (wp_load 𝒱₀ (c : Thread nD τ) none Set.univ (m := oM) (Finset.subset_univ _)) $$ Hout; iintro Hout
  sx
  iapply (wp_store 𝒱₀ (c : Thread nD τ) none Set.univ (m := oM) (r := Rect.unit (s := S512x512) (k0_off3 c 6#32) S32x512.size (k0_off3_inb c 5)) (Mk := Finset.univ) (Finset.subset_univ _)) $$ Hout; iintro Hout

  sx
  iapply (wait_agRecv m ρ K c 9 (by decide) _ _ (by rfl)) $$ [HcAR7 HO HpAR7]
  · iframe HR HcAR7 HO HpAR7
    iapply (Levels.mayWait_nil c _); iexact Hlev
  iintro ⟨HO, HzAR7, Hpay'⟩
  unfold agRecvPay
  icases Hpay' with ⟨%ga9, Hga9, %hga9⟩
  sx
  iapply (wp_load 𝒱₀ (c : Thread nD τ) none Set.univ (m := agM) (MF.load_sub agM 9)) $$ [Hga9]
  · unfold slotPts; iexact Hga9
  iintro Hga9
  rw [MF.load_slot agM 9 ga9, hga9]
  sx
  iapply (wp_load 𝒱₀ (c : Thread nD τ) none Set.univ (m := oM) (Finset.subset_univ _)) $$ Hout; iintro Hout
  sx
  iapply (wp_store 𝒱₀ (c : Thread nD τ) none Set.univ (m := oM) (r := Rect.unit (s := S512x512) (k0_off3 c 9#32) S32x512.size (k0_off3_inb c 8)) (Mk := Finset.univ) (Finset.subset_univ _)) $$ Hout; iintro Hout

  sx
  iapply (wait_agRecv m ρ K c 7 (by decide) _ _ (by rfl)) $$ [HcAR9 HO HpAR9]
  · iframe HR HcAR9 HO HpAR9
    iapply (Levels.mayWait_nil c _); iexact Hlev
  iintro ⟨HO, HzAR9, Hpay'⟩
  unfold agRecvPay
  icases Hpay' with ⟨%ga7, Hga7, %hga7⟩
  sx
  iapply (wp_load 𝒱₀ (c : Thread nD τ) none Set.univ (m := agM) (MF.load_sub agM 7)) $$ [Hga7]
  · unfold slotPts; iexact Hga7
  iintro Hga7
  rw [MF.load_slot agM 7 ga7, hga7]
  sx
  iapply (wp_load 𝒱₀ (c : Thread nD τ) none Set.univ (m := oM) (Finset.subset_univ _)) $$ Hout; iintro Hout
  sx
  iapply (wp_store 𝒱₀ (c : Thread nD τ) none Set.univ (m := oM) (r := Rect.unit (s := S512x512) (k0_off3 c 7#32) S32x512.size (k0_off3_inb c 6)) (Mk := Finset.univ) (Finset.subset_univ _)) $$ Hout; iintro Hout

  sx
  iapply (wait_agRecv m ρ K c 8 (by decide) _ _ (by rfl)) $$ [HcAR8 HO HpAR8]
  · iframe HR HcAR8 HO HpAR8
    iapply (Levels.mayWait_nil c _); iexact Hlev
  iintro ⟨HO, HzAR8, Hpay'⟩
  unfold agRecvPay
  icases Hpay' with ⟨%ga8, Hga8, %hga8⟩
  sx
  iapply (wp_load 𝒱₀ (c : Thread nD τ) none Set.univ (m := agM) (MF.load_sub agM 8)) $$ [Hga8]
  · unfold slotPts; iexact Hga8
  iintro Hga8
  rw [MF.load_slot agM 8 ga8, hga8]
  sx
  iapply (wp_load 𝒱₀ (c : Thread nD τ) none Set.univ (m := oM) (Finset.subset_univ _)) $$ Hout; iintro Hout
  sx
  iapply (wp_store 𝒱₀ (c : Thread nD τ) none Set.univ (m := oM) (r := Rect.unit (s := S512x512) (k0_off3 c 8#32) S32x512.size (k0_off3_inb c 7)) (Mk := Finset.univ) (Finset.subset_univ _)) $$ Hout; iintro Hout

  sx
  iapply (wait_rsSend m ρ K c 15 (by decide) _ _ (by rfl)) $$ [HcS1 HO HpS1]
  · iframe HR HcS1 HO HpS1
    iapply (Levels.mayWait_nil c _); iexact Hlev
  iintro ⟨HO, HzS1, Hslb1⟩

  sx
  iapply (wait_rsSend m ρ K c 1 (by decide) _ _ (by rfl)) $$ [HcS15 HO HpS15]
  · iframe HR HcS15 HO HpS15
    iapply (Levels.mayWait_nil c _); iexact Hlev
  iintro ⟨HO, HzS15, Hslb15⟩

  sx
  iapply (wait_rsSend m ρ K c 14 (by decide) _ _ (by rfl)) $$ [HcS2 HO HpS2]
  · iframe HR HcS2 HO HpS2
    iapply (Levels.mayWait_nil c _); iexact Hlev
  iintro ⟨HO, HzS2, Hslb2⟩

  sx
  iapply (wait_rsSend m ρ K c 2 (by decide) _ _ (by rfl)) $$ [HcS14 HO HpS14]
  · iframe HR HcS14 HO HpS14
    iapply (Levels.mayWait_nil c _); iexact Hlev
  iintro ⟨HO, HzS14, Hslb14⟩

  sx
  iapply (wait_rsSend m ρ K c 13 (by decide) _ _ (by rfl)) $$ [HcS3 HO HpS3]
  · iframe HR HcS3 HO HpS3
    iapply (Levels.mayWait_nil c _); iexact Hlev
  iintro ⟨HO, HzS3, Hslb3⟩

  sx
  iapply (wait_rsSend m ρ K c 3 (by decide) _ _ (by rfl)) $$ [HcS13 HO HpS13]
  · iframe HR HcS13 HO HpS13
    iapply (Levels.mayWait_nil c _); iexact Hlev
  iintro ⟨HO, HzS13, Hslb13⟩

  sx
  iapply (wait_rsSend m ρ K c 12 (by decide) _ _ (by rfl)) $$ [HcS4 HO HpS4]
  · iframe HR HcS4 HO HpS4
    iapply (Levels.mayWait_nil c _); iexact Hlev
  iintro ⟨HO, HzS4, Hslb4⟩

  sx
  iapply (wait_rsSend m ρ K c 4 (by decide) _ _ (by rfl)) $$ [HcS12 HO HpS12]
  · iframe HR HcS12 HO HpS12
    iapply (Levels.mayWait_nil c _); iexact Hlev
  iintro ⟨HO, HzS12, Hslb12⟩

  sx
  iapply (wait_rsSend m ρ K c 11 (by decide) _ _ (by rfl)) $$ [HcS5 HO HpS5]
  · iframe HR HcS5 HO HpS5
    iapply (Levels.mayWait_nil c _); iexact Hlev
  iintro ⟨HO, HzS5, Hslb5⟩

  sx
  iapply (wait_rsSend m ρ K c 5 (by decide) _ _ (by rfl)) $$ [HcS11 HO HpS11]
  · iframe HR HcS11 HO HpS11
    iapply (Levels.mayWait_nil c _); iexact Hlev
  iintro ⟨HO, HzS11, Hslb11⟩

  sx
  iapply (wait_rsSend m ρ K c 10 (by decide) _ _ (by rfl)) $$ [HcS6 HO HpS6]
  · iframe HR HcS6 HO HpS6
    iapply (Levels.mayWait_nil c _); iexact Hlev
  iintro ⟨HO, HzS6, Hslb6⟩

  sx
  iapply (wait_rsSend m ρ K c 6 (by decide) _ _ (by rfl)) $$ [HcS10 HO HpS10]
  · iframe HR HcS10 HO HpS10
    iapply (Levels.mayWait_nil c _); iexact Hlev
  iintro ⟨HO, HzS10, Hslb10⟩

  sx
  iapply (wait_rsSend m ρ K c 9 (by decide) _ _ (by rfl)) $$ [HcS7 HO HpS7]
  · iframe HR HcS7 HO HpS7
    iapply (Levels.mayWait_nil c _); iexact Hlev
  iintro ⟨HO, HzS7, Hslb7⟩

  sx
  iapply (wait_rsSend m ρ K c 7 (by decide) _ _ (by rfl)) $$ [HcS9 HO HpS9]
  · iframe HR HcS9 HO HpS9
    iapply (Levels.mayWait_nil c _); iexact Hlev
  iintro ⟨HO, HzS9, Hslb9⟩

  sx
  iapply (wait_rsSend m ρ K c 8 (by decide) _ _ (by rfl)) $$ [HcS8 HO HpS8]
  · iframe HR HcS8 HO HpS8
    iapply (Levels.mayWait_nil c _); iexact Hlev
  iintro ⟨HO, HzS8, Hslb8⟩

  sx
  iapply (wait_agSend m ρ K c 15 (by decide) _ _ (by rfl)) $$ [HcAS1 HO HpAS1]
  · iframe HR HcAS1 HO HpAS1
    iapply (Levels.mayWait_nil c _); iexact Hlev
  iintro ⟨HO, HzAS1, Hpcb0⟩

  sx
  iapply (wait_agSend m ρ K c 1 (by decide) _ _ (by rfl)) $$ [HcAS15 HO HpAS15]
  · iframe HR HcAS15 HO HpAS15
    iapply (Levels.mayWait_nil c _); iexact Hlev
  iintro ⟨HO, HzAS15, Hpcb1⟩

  sx
  iapply (wait_agSend m ρ K c 14 (by decide) _ _ (by rfl)) $$ [HcAS2 HO HpAS2]
  · iframe HR HcAS2 HO HpAS2
    iapply (Levels.mayWait_nil c _); iexact Hlev
  iintro ⟨HO, HzAS2, Hpcb2⟩

  sx
  iapply (wait_agSend m ρ K c 2 (by decide) _ _ (by rfl)) $$ [HcAS14 HO HpAS14]
  · iframe HR HcAS14 HO HpAS14
    iapply (Levels.mayWait_nil c _); iexact Hlev
  iintro ⟨HO, HzAS14, Hpcb3⟩

  sx
  iapply (wait_agSend m ρ K c 13 (by decide) _ _ (by rfl)) $$ [HcAS3 HO HpAS3]
  · iframe HR HcAS3 HO HpAS3
    iapply (Levels.mayWait_nil c _); iexact Hlev
  iintro ⟨HO, HzAS3, Hpcb4⟩

  sx
  iapply (wait_agSend m ρ K c 3 (by decide) _ _ (by rfl)) $$ [HcAS13 HO HpAS13]
  · iframe HR HcAS13 HO HpAS13
    iapply (Levels.mayWait_nil c _); iexact Hlev
  iintro ⟨HO, HzAS13, Hpcb5⟩

  sx
  iapply (wait_agSend m ρ K c 12 (by decide) _ _ (by rfl)) $$ [HcAS4 HO HpAS4]
  · iframe HR HcAS4 HO HpAS4
    iapply (Levels.mayWait_nil c _); iexact Hlev
  iintro ⟨HO, HzAS4, Hpcb6⟩

  sx
  iapply (wait_agSend m ρ K c 4 (by decide) _ _ (by rfl)) $$ [HcAS12 HO HpAS12]
  · iframe HR HcAS12 HO HpAS12
    iapply (Levels.mayWait_nil c _); iexact Hlev
  iintro ⟨HO, HzAS12, Hpcb7⟩

  sx
  iapply (wait_agSend m ρ K c 11 (by decide) _ _ (by rfl)) $$ [HcAS5 HO HpAS5]
  · iframe HR HcAS5 HO HpAS5
    iapply (Levels.mayWait_nil c _); iexact Hlev
  iintro ⟨HO, HzAS5, Hpcb8⟩

  sx
  iapply (wait_agSend m ρ K c 5 (by decide) _ _ (by rfl)) $$ [HcAS11 HO HpAS11]
  · iframe HR HcAS11 HO HpAS11
    iapply (Levels.mayWait_nil c _); iexact Hlev
  iintro ⟨HO, HzAS11, Hpcb9⟩

  sx
  iapply (wait_agSend m ρ K c 10 (by decide) _ _ (by rfl)) $$ [HcAS6 HO HpAS6]
  · iframe HR HcAS6 HO HpAS6
    iapply (Levels.mayWait_nil c _); iexact Hlev
  iintro ⟨HO, HzAS6, Hpcb10⟩

  sx
  iapply (wait_agSend m ρ K c 6 (by decide) _ _ (by rfl)) $$ [HcAS10 HO HpAS10]
  · iframe HR HcAS10 HO HpAS10
    iapply (Levels.mayWait_nil c _); iexact Hlev
  iintro ⟨HO, HzAS10, Hpcb11⟩

  sx
  iapply (wait_agSend m ρ K c 9 (by decide) _ _ (by rfl)) $$ [HcAS7 HO HpAS7]
  · iframe HR HcAS7 HO HpAS7
    iapply (Levels.mayWait_nil c _); iexact Hlev
  iintro ⟨HO, HzAS7, Hpcb12⟩

  sx
  iapply (wait_agSend m ρ K c 7 (by decide) _ _ (by rfl)) $$ [HcAS9 HO HpAS9]
  · iframe HR HcAS9 HO HpAS9
    iapply (Levels.mayWait_nil c _); iexact Hlev
  iintro ⟨HO, HzAS9, Hpcb13⟩

  sx
  iapply (wait_agSend m ρ K c 8 (by decide) _ _ (by rfl)) $$ [HcAS8 HO HpAS8]
  · iframe HR HcAS8 HO HpAS8
    iapply (Levels.mayWait_nil c _); iexact Hlev
  iintro ⟨HO, HzAS8, Hpcb14⟩

  sx
  first | rw [wp_ret] | skip
  imod (finish m ρ MF K c _ g1 frs0 fag0) $$ [Hxown Hslb1 Hslb15 Hslb2 Hslb14 Hslb3 Hslb13 Hslb4 Hslb12 Hslb5 Hslb11 Hslb6 Hslb10 Hslb7 Hslb9 Hslb8 Hpcb0 Hpcb1 Hpcb2 Hpcb3 Hpcb4 Hpcb5 Hpcb6 Hpcb7 Hpcb8 Hpcb9 Hpcb10 Hpcb11 Hpcb12 Hpcb13 Hpcb14 Hrem Hrs0 Hgr15 Hgr1 Hgr14 Hgr2 Hgr13 Hgr3 Hgr12 Hgr4 Hgr11 Hgr5 Hgr10 Hgr6 Hgr9 Hgr7 Hgr8 Hag0 Hga15 Hga1 Hga14 Hga2 Hga13 Hga3 Hga12 Hga4 Hga11 Hga5 Hga10 Hga6 Hga9 Hga7 Hga8 Hp0a Hp0b Hp0c Hp0d HzS1 HzR1 HzAS1 HzAR1 HzS15 HzR15 HzAS15 HzAR15 HzS2 HzR2 HzAS2 HzAR2 HzS14 HzR14 HzAS14 HzAR14 HzS3 HzR3 HzAS3 HzAR3 HzS13 HzR13 HzAS13 HzAR13 HzS4 HzR4 HzAS4 HzAR4 HzS12 HzR12 HzAS12 HzAR12 HzS5 HzR5 HzAS5 HzAR5 HzS11 HzR11 HzAS11 HzAR11 HzS6 HzR6 HzAS6 HzAR6 HzS10 HzR10 HzAS10 HzAR10 HzS7 HzR7 HzAS7 HzAR7 HzS9 HzR9 HzAS9 HzAR9 HzS8 HzR8 HzAS8 HzAR8 HO Hx Hout] with Hpost
  · simp only [offs, bigSepL_cons_cons, bigSepL_singleton, sepL, opp_1, opp_2, opp_3, opp_4, opp_5, opp_6, opp_7, opp_8, opp_9, opp_10, opp_11, opp_12, opp_13, opp_14, opp_15]
    isplitr; · iexact HR
    isplitl [Hxown Hslb1 Hslb15 Hslb2 Hslb14 Hslb3 Hslb13 Hslb4 Hslb12 Hslb5 Hslb11 Hslb6 Hslb10 Hslb7 Hslb9 Hslb8]; · iframe
    isplitl [Hpcb0 Hpcb1 Hpcb2 Hpcb3 Hpcb4 Hpcb5 Hpcb6 Hpcb7 Hpcb8 Hpcb9 Hpcb10 Hpcb11 Hpcb12 Hpcb13 Hpcb14 Hrem]; · iframe
    isplitl [Hrs0 Hgr15 Hgr1 Hgr14 Hgr2 Hgr13 Hgr3 Hgr12 Hgr4 Hgr11 Hgr5 Hgr10 Hgr6 Hgr9 Hgr7 Hgr8]
    · isplitl [Hrs0]; · iexact Hrs0
      isplitl [Hgr15]; · iexists gr15; unfold slotPts; iexact Hgr15
      isplitl [Hgr1]; · iexists gr1; unfold slotPts; iexact Hgr1
      isplitl [Hgr14]; · iexists gr14; unfold slotPts; iexact Hgr14
      isplitl [Hgr2]; · iexists gr2; unfold slotPts; iexact Hgr2
      isplitl [Hgr13]; · iexists gr13; unfold slotPts; iexact Hgr13
      isplitl [Hgr3]; · iexists gr3; unfold slotPts; iexact Hgr3
      isplitl [Hgr12]; · iexists gr12; unfold slotPts; iexact Hgr12
      isplitl [Hgr4]; · iexists gr4; unfold slotPts; iexact Hgr4
      isplitl [Hgr11]; · iexists gr11; unfold slotPts; iexact Hgr11
      isplitl [Hgr5]; · iexists gr5; unfold slotPts; iexact Hgr5
      isplitl [Hgr10]; · iexists gr10; unfold slotPts; iexact Hgr10
      isplitl [Hgr6]; · iexists gr6; unfold slotPts; iexact Hgr6
      isplitl [Hgr9]; · iexists gr9; unfold slotPts; iexact Hgr9
      isplitl [Hgr7]; · iexists gr7; unfold slotPts; iexact Hgr7
      iexists gr8; unfold slotPts; iexact Hgr8
    isplitl [Hag0 Hga15 Hga1 Hga14 Hga2 Hga13 Hga3 Hga12 Hga4 Hga11 Hga5 Hga10 Hga6 Hga9 Hga7 Hga8]
    · isplitl [Hag0]; · iexact Hag0
      isplitl [Hga15]; · iexists ga15; unfold slotPts; iexact Hga15
      isplitl [Hga1]; · iexists ga1; unfold slotPts; iexact Hga1
      isplitl [Hga14]; · iexists ga14; unfold slotPts; iexact Hga14
      isplitl [Hga2]; · iexists ga2; unfold slotPts; iexact Hga2
      isplitl [Hga13]; · iexists ga13; unfold slotPts; iexact Hga13
      isplitl [Hga3]; · iexists ga3; unfold slotPts; iexact Hga3
      isplitl [Hga12]; · iexists ga12; unfold slotPts; iexact Hga12
      isplitl [Hga4]; · iexists ga4; unfold slotPts; iexact Hga4
      isplitl [Hga11]; · iexists ga11; unfold slotPts; iexact Hga11
      isplitl [Hga5]; · iexists ga5; unfold slotPts; iexact Hga5
      isplitl [Hga10]; · iexists ga10; unfold slotPts; iexact Hga10
      isplitl [Hga6]; · iexists ga6; unfold slotPts; iexact Hga6
      isplitl [Hga9]; · iexists ga9; unfold slotPts; iexact Hga9
      isplitl [Hga7]; · iexists ga7; unfold slotPts; iexact Hga7
      iexists ga8; unfold slotPts; iexact Hga8
    isplitl [Hp0a Hp0b Hp0c Hp0d]; · unfold posK; iframe
    isplitl [HzS1 HzR1 HzAS1 HzAR1 HzS15 HzR15 HzAS15 HzAR15 HzS2 HzR2 HzAS2 HzAR2 HzS14 HzR14 HzAS14 HzAR14 HzS3 HzR3 HzAS3 HzAR3 HzS13 HzR13 HzAS13 HzAR13 HzS4 HzR4 HzAS4 HzAR4 HzS12 HzR12 HzAS12 HzAR12 HzS5 HzR5 HzAS5 HzAR5 HzS11 HzR11 HzAS11 HzAR11 HzS6 HzR6 HzAS6 HzAR6 HzS10 HzR10 HzAS10 HzAR10 HzS7 HzR7 HzAS7 HzAR7 HzS9 HzR9 HzAS9 HzAR9 HzS8 HzR8 HzAS8 HzAR8]; · unfold semK; iframe
    isplitl [HO]; · iexact HO
    isplitl [Hx]; · iexact Hx
    iexact Hout
  imodintro
  iapply Hk
  iexact Hpost

end Cert.KernelIdeal.Body

end
-- ==== Proof.RefValue.lean ====
import proofs.«901016_g7700000000001017_dist_rs_then_ag_i_m512_n512_v7x_i16_bf16_1_alg».proof.Proof.Gen.ReferenceIdeal.Run
import proofs.«901016_g7700000000001017_dist_rs_then_ag_i_m512_n512_v7x_i16_bf16_1_alg».proof.Proof.Gen.ReferenceIdeal.Read
import proofs.«901016_g7700000000001017_dist_rs_then_ag_i_m512_n512_v7x_i16_bf16_1_alg».proof.Proof.Gen.Pre_finite_inputs_ReferenceIdeal
import proofs.«901016_g7700000000001017_dist_rs_then_ag_i_m512_n512_v7x_i16_bf16_1_alg».proof.Proof.Proto
import Idealize.ShloMosaic.Lib.Layout

noncomputable section

namespace Cert.KernelIdeal.RefValue

open Cert.KernelIdeal Cert.KernelIdeal.Gen Cert.KernelIdeal.Proto
open Idealize.ShloMosaic
open Idealize.ShloMosaic.TcCoe
open Idealize.SL.Sem

def rowAt (d : Fin 16) (i : S512x512.Idx) : Cert.ReferenceIdeal.S8192x512.Idx := fun a => match a with
  | ⟨0, _⟩ => ⟨512 * d.val + (i 0).val, by
      have h0 : (i 0).val < 512 := (i 0).isLt; have hd : d.val < 16 := d.isLt
      show 512 * d.val + (i 0).val < 8192; omega⟩
  | ⟨1, _⟩ => ⟨(i 1).val, (i 1).isLt⟩

theorem ref_apply (X : (⟨Cert.ReferenceIdeal.S8192x512, .f32⟩ : BufTy).Contents (Elt Ideal)) (i : S512x512.Idx) :
    Cert.ReferenceIdeal.Read.val_main_v1 (F := Ideal) X i = ∑ d : Fin 16, X (rowAt d i) := by
  rw [Cert.ReferenceIdeal.Read.val_main_v1_apply, Cert.ReferenceIdeal.Read.val_main_cst_apply,
    Ideal.ofBits_def, Ideal.ofBits_zero_f32, zero_add]
  refine Finset.sum_congr rfl fun d _ => ?_
  rw [Cert.ReferenceIdeal.Read.val_main_v0_apply]
  refine congrArg X (funext fun a => Fin.ext ?_)
  have h0 : (i 0).val < 512 := (i 0).isLt
  have h1 : (i 1).val < 512 := (i 1).isLt
  match a with
  | ⟨0, _⟩ => show ((d.val * 512 + (i 0).val) * 512 + (i 1).val) / 512 = 512 * d.val + (i 0).val; omega
  | ⟨1, _⟩ => show ((d.val * 512 + (i 0).val) * 512 + (i 1).val) % 512 = (i 1).val; omega

theorem frame_ri : Cert.frame_ReferenceIdeal :=
  fun m ρ _ => (θ_run Cert.ReferenceIdeal.defs _ _).mono (fun _ h c => (h c).2) (Cert.ReferenceIdeal.Value.run (F := Ideal) m ρ)

variable (m : (ℓ : Loc nD τ sig) → Buf (Elt Ideal) ℓ) (ρ : Dev nD → PrngReg)

theorem xC_apply (c : Dev nD) (i : S512x512.Idx) :
    xC (F := Ideal) m ρ c i = m ((c : Thread nD τ).loc main_arg0) i := by
  unfold xC
  show m ((c : Thread nD τ).loc main_arg0) ((win0_0.blk (0 : Fin 1)).view.emb i) = _
  refine congrArg _ (funext fun a => Fin.ext ?_)
  show 0 * _ + 1 * (i a).val = (i a).val
  omega

theorem xC_block (X : Cert.ReferenceIdeal.S8192x512.Idx → Elt Ideal .f32) (c : Dev nD)
    (h : m ((c : Thread nD τ).loc main_arg0) = Layout.block ⟨2, ![512, 512]⟩ ⟨2, ![8192, 512]⟩ 0 16 c X) (i : S512x512.Idx) :
    xC (F := Ideal) m ρ c i = X (rowAt c i) := by
  rw [xC_apply, h, Layout.block_apply]
  refine congrArg X (funext fun a => Fin.ext ?_)
  match a with
  | ⟨0, _⟩ => show c.val * 512 + (i 0).val = 512 * c.val + (i 0).val; omega
  | ⟨1, _⟩ => rfl

theorem off2_eq (c : Dev nD) : k0_off2 c = ![32 * c.val, 0] := by revert c; decide +kernel

def blkRow (c : Dev nD) (y : S32x512.Idx) : S512x512.Idx := fun a => match a with
  | ⟨0, _⟩ => ⟨32 * c.val + (y 0).val, by
      have h0 : (y 0).val < 32 := (y 0).isLt; have hc : c.val < 16 := c.isLt
      show 32 * c.val + (y 0).val < 512; omega⟩
  | ⟨1, _⟩ => ⟨(y 1).val, (y 1).isLt⟩

theorem sq_unsq (X : Vec Ideal S32x512 .bf16) : shapeCast S32x512 (unsq X) shapeCasts_S1x32x512_S32x512 = X :=
  shapeCast_shapeCast X _ _

theorem xbC_apply (c : Dev nD) (i : S512x512.Idx) : xbC (F := Ideal) m ρ c i = xC (F := Ideal) m ρ c i := by
  unfold xbC k0_pay1
  rw [shapeCast_self, shapeCast_self]
  rfl

theorem ownRows_apply (c : Dev nD) (y : S32x512.Idx) : ownRows (F := Ideal) m ρ c y = xC (F := Ideal) m ρ c (blkRow c y) := by
  unfold ownRows
  show xC m ρ c ((Rect.unit (s := S512x512) (k0_off2 c) S32x512.size (k0_off2_inb c)).toLoadRect.idx y) = _
  refine congrArg _ (funext fun a => Fin.ext ?_)
  show k0_off2 c a + 1 * (y a).val = _
  rw [off2_eq]
  match a with
  | ⟨0, _⟩ => show 32 * c.val + 1 * (y 0).val = 32 * c.val + (y 0).val; omega
  | ⟨1, _⟩ => show 0 + 1 * (y 1).val = (y 1).val; omega

theorem succ_pred15 {k : Fin 16} (hk : k ≠ 0) : 1 + (pred15 k).val = k.val := by
  have : k.val ≠ 0 := fun h => hk (Fin.ext h)
  show 1 + (k.val - 1) = k.val; omega

theorem chunk_apply (c : Dev nD) {k : Fin 16} (hk : k ≠ 0) (y : S32x512.Idx) :
    chunk (F := Ideal) m ρ c k y = xC (F := Ideal) m ρ c (blkRow (peer c k) y) := by
  unfold chunk
  rw [← xbC_apply]
  show xbC m ρ c ((srcSl c k).view.emb y) = _
  refine congrArg _ (funext fun a => Fin.ext ?_)
  show k0_off1 c (BitVec.ofNat 32 (1 + (pred15 k).val)) a + 1 * (y a).val = _
  rw [succ_pred15 hk, off1_eq]
  match a with
  | ⟨0, _⟩ => show 32 * (peer c k).val + 1 * (y 0).val = 32 * (peer c k).val + (y 0).val; omega
  | ⟨1, _⟩ => show 0 + 1 * (y 1).val = (y 1).val; omega

theorem got_apply (c : Dev nD) {s : Fin 16} (hs : s ≠ 0) (y : S32x512.Idx) :
    got (F := Ideal) m ρ c s y = xC (F := Ideal) m ρ (peer c s) (blkRow c y) := by
  unfold got
  rw [chunk_apply m ρ (peer c s) (opp_ne_zero hs), peer_opp]

theorem pay2_apply (a : Vec Ideal S32x512 .f32) (y : S32x512.Idx) : k0_pay2 (F := Ideal) a y = (a y : EReal) := by
  unfold k0_pay2; rw [shapeCast_self]; rfl

theorem pay3_apply (a : FVec Ideal S32x512 .bf16) (X1 X2 : Vec Ideal S32x512 .bf16) (y : S32x512.Idx) :
    k0_pay3 (F := Ideal) a (unsq X1) (unsq X2) y = ((a y : EReal) + X1 y + X2 y : EReal) := by
  unfold k0_pay3; rw [sq_unsq, sq_unsq]; rfl

theorem pay4_apply (a : FVec Ideal S32x512 .bf16) (X1 X2 X3 : Vec Ideal S32x512 .bf16) (y : S32x512.Idx) :
    k0_pay4 (F := Ideal) a (unsq X1) (unsq X2) (unsq X3) y = ((a y : EReal) + X1 y + X2 y + X3 y : EReal) := by
  unfold k0_pay4; rw [sq_unsq, sq_unsq, sq_unsq]; rfl

theorem pay5_apply (a : FVec Ideal S32x512 .bf16) (X1 X2 X3 : Vec Ideal S32x512 .bf16) (y : S32x512.Idx) :
    k0_pay5 (F := Ideal) a (unsq X1) (unsq X2) (unsq X3) y = ((a y : EReal) + X1 y + X2 y + X3 y : EReal) := by
  unfold k0_pay5; rw [sq_unsq, sq_unsq, sq_unsq]; rfl

theorem pay6_apply (a : FVec Ideal S32x512 .bf16) (X1 X2 X3 : Vec Ideal S32x512 .bf16) (y : S32x512.Idx) :
    k0_pay6 (F := Ideal) a (unsq X1) (unsq X2) (unsq X3) y = ((a y : EReal) + X1 y + X2 y + X3 y : EReal) := by
  unfold k0_pay6; rw [sq_unsq, sq_unsq, sq_unsq]; rfl

theorem pay7_apply (a : FVec Ideal S32x512 .bf16) (X1 X2 : Vec Ideal S32x512 .bf16) (y : S32x512.Idx) :
    k0_pay7 (F := Ideal) a (unsq X1) (unsq X2) y = ((a y : EReal) + X1 y + X2 y : EReal) := by
  unfold k0_pay7; rw [sq_unsq, sq_unsq]; rfl

theorem pay8_apply (a : FVec Ideal S32x512 .bf16) (X1 X2 : Vec Ideal S32x512 .bf16) (y : S32x512.Idx) :
    k0_pay8 (F := Ideal) a (unsq X1) (unsq X2) y = ((a y : EReal) + X1 y + X2 y : EReal) := by
  unfold k0_pay8; rw [sq_unsq, sq_unsq]; rfl

def term (c : Dev nD) (y : S32x512.Idx) (d : Dev nD) : EReal := xC (F := Ideal) m ρ d (blkRow c y)

theorem reduced_apply_ord (c : Dev nD) (y : S32x512.Idx) :
    (show EReal from reduced (F := Ideal) m ρ c y) =
      term m ρ c y (peer c 0) + term m ρ c y (peer c 15) + term m ρ c y (peer c 1) + term m ρ c y (peer c 14)
        + term m ρ c y (peer c 2) + term m ρ c y (peer c 13) + term m ρ c y (peer c 3) + term m ρ c y (peer c 12)
        + term m ρ c y (peer c 4) + term m ρ c y (peer c 11) + term m ρ c y (peer c 5) + term m ρ c y (peer c 10)
        + term m ρ c y (peer c 6) + term m ρ c y (peer c 9) + term m ρ c y (peer c 7) + term m ρ c y (peer c 8) := by
  unfold reduced partial14
  rw [pay8_apply, pay7_apply, pay6_apply, pay5_apply, pay4_apply, pay3_apply, pay2_apply, ownRows_apply,
    got_apply m ρ c (s := 15) (by decide), got_apply m ρ c (s := 1) (by decide), got_apply m ρ c (s := 14) (by decide),
    got_apply m ρ c (s := 2) (by decide), got_apply m ρ c (s := 13) (by decide), got_apply m ρ c (s := 3) (by decide),
    got_apply m ρ c (s := 12) (by decide), got_apply m ρ c (s := 4) (by decide), got_apply m ρ c (s := 11) (by decide),
    got_apply m ρ c (s := 5) (by decide), got_apply m ρ c (s := 10) (by decide), got_apply m ρ c (s := 6) (by decide),
    got_apply m ρ c (s := 9) (by decide), got_apply m ρ c (s := 7) (by decide), got_apply m ρ c (s := 8) (by decide),
    peer_zero]
  rfl

theorem peer_bijective (c : Dev nD) : Function.Bijective (peer c) :=
  (Finite.injective_iff_bijective).mp fun _ _ h => peer_inj c h

theorem sum_ord (c : Dev nD) (f : Dev nD → EReal) :
    f (peer c 0) + f (peer c 15) + f (peer c 1) + f (peer c 14) + f (peer c 2) + f (peer c 13) + f (peer c 3) + f (peer c 12)
      + f (peer c 4) + f (peer c 11) + f (peer c 5) + f (peer c 10) + f (peer c 6) + f (peer c 9) + f (peer c 7) + f (peer c 8)
      = ∑ d : Dev nD, f d := by
  rw [← Fintype.sum_bijective (peer c) (peer_bijective c) (fun s => f (peer c s)) f (fun _ => rfl)]
  rw [Fin.sum_univ_def, show List.finRange 16 = [0, 1, 2, 3, 4, 5, 6, 7, 8, 9, 10, 11, 12, 13, 14, 15] from by decide]
  simp only [List.map_cons, List.map_nil, List.sum_cons, List.sum_nil, add_zero]
  ac_rfl

theorem reduced_apply (c : Dev nD) (y : S32x512.Idx) :
    (show EReal from reduced (F := Ideal) m ρ c y) = ∑ d : Dev nD, term m ρ c y d :=
  (reduced_apply_ord m ρ c y).trans (sum_ord c (term m ρ c y))

theorem gotAg_apply (c : Dev nD) (s : Fin 16) (y : S32x512.Idx) :
    (gotAg (F := Ideal) m ρ c s y : EReal) = reduced (F := Ideal) m ρ (peer c s) y := by
  unfold gotAg redC k0_pay9
  rw [shapeCast_self]
  rfl

theorem pay10_apply (a : FVec Ideal S32x512 .bf16) (y : S32x512.Idx) : (k0_pay10 (F := Ideal) a y : EReal) = a y := rfl

theorem pay11_apply (X : Vec Ideal S32x512 .bf16) (y : S32x512.Idx) : (k0_pay11 (F := Ideal) (unsq X) y : EReal) = X y := by
  unfold k0_pay11; rw [sq_unsq]; rfl

def rowBlk (i : S512x512.Idx) : Dev nD := ⟨(i 0).val / 32, by have h : (i 0).val < 512 := (i 0).isLt; show (i 0).val / 32 < 16; omega⟩
def inBlk (i : S512x512.Idx) : S32x512.Idx := fun a => match a with
  | ⟨0, _⟩ => ⟨(i 0).val % 32, Nat.mod_lt _ (by decide)⟩
  | ⟨1, _⟩ => ⟨(i 1).val, (i 1).isLt⟩

theorem blkRow_rowBlk (i : S512x512.Idx) : blkRow (rowBlk i) (inBlk i) = i :=
  funext fun a => Fin.ext (by
    match a with
    | ⟨0, _⟩ => show 32 * ((i 0).val / 32) + (i 0).val % 32 = (i 0).val; omega
    | ⟨1, _⟩ => rfl)

theorem reduced_rowBlk (i : S512x512.Idx) :
    (show EReal from reduced (F := Ideal) m ρ (rowBlk i) (inBlk i)) = ∑ d : Dev nD, (show EReal from xC (F := Ideal) m ρ d i) := by
  refine (reduced_apply m ρ (rowBlk i) (inBlk i)).trans (Finset.sum_congr rfl fun d _ => ?_)
  unfold term; rw [blkRow_rowBlk]

theorem putRows_in (b : Dev nD) {off : Fin 2 → Nat} (hoff : off = ![32 * b.val, 0])
    (h : ∀ a, off a + S32x512.size a ≤ S512x512.size a)
    (g : (cc0_stg1_0 : Ref sig .tc).ty.Contents (Elt Ideal)) (w : Vec Ideal S32x512 .f32)
    (i : S512x512.Idx) (hi : rowBlk i = b) :
    putRows off h g w i = w (inBlk i) := by
  subst hoff
  have hw := View.write_emb_of_mem
    (v := (oM.access (Rect.unit (s := S512x512) ![32 * b.val, 0] S32x512.size h) : View sig .tc _ _ _))
    (Val := Elt Ideal) g w (M := Finset.univ) (x := inBlk i) (Finset.mem_univ _)
  have he : (oM.access (Rect.unit (s := S512x512) ![32 * b.val, 0] S32x512.size h) : View sig .tc _ _ _).emb (inBlk i) = i := by
    refine funext fun a => Fin.ext ?_
    have hb : (i 0).val / 32 = b.val := congrArg Fin.val hi
    match a with
    | ⟨0, _⟩ => show 32 * b.val + 1 * ((i 0).val % 32) = (i 0).val; omega
    | ⟨1, _⟩ => show 0 + 1 * (i 1).val = (i 1).val; omega
  rw [he] at hw
  exact hw

theorem putRows_out (b : Dev nD) {off : Fin 2 → Nat} (hoff : off = ![32 * b.val, 0])
    (h : ∀ a, off a + S32x512.size a ≤ S512x512.size a)
    (g : (cc0_stg1_0 : Ref sig .tc).ty.Contents (Elt Ideal)) (w : Vec Ideal S32x512 .f32)
    (i : S512x512.Idx) (hi : rowBlk i ≠ b) :
    putRows off h g w i = g i := by
  subst hoff
  have hn : i ∉ (oM.access (Rect.unit (s := S512x512) ![32 * b.val, 0] S32x512.size h) : View sig .tc _ _ _).setOn Finset.univ := by
    rw [View.setOn_univ]
    have hs : (oM.access (Rect.unit (s := S512x512) ![32 * b.val, 0] S32x512.size h) : View sig .tc _ _ _).set
        = (Rect.unit (s := S512x512) ![32 * b.val, 0] S32x512.size h).set := View.set_slice_whole cc0_stg1_0 _
    rw [hs, Rect.mem_set_unit]
    intro hm
    have h1 : 32 * b.val ≤ (i 0).val := (hm 0).1
    have h2 : (i 0).val < 32 * b.val + 32 := (hm 0).2
    exact hi (Fin.ext (show (i 0).val / 32 = b.val by omega))
  exact View.write_of_not_mem
    (v := (oM.access (Rect.unit (s := S512x512) ![32 * b.val, 0] S32x512.size h) : View sig .tc _ _ _)) g w Finset.univ hn

theorem outOff_eq (c : Dev nD) {s : Fin 16} (hs : s ≠ 0) : outOff c s = ![32 * (peer c s).val, 0] := by
  show k0_off3 c (BitVec.ofNat 32 (1 + (pred15 s).val)) = _
  rw [succ_pred15 hs, off3_eq]

def laid (i : S512x512.Idx) : EReal := reduced (F := Ideal) m ρ (rowBlk i) (inBlk i)

def Holds (g : (cc0_stg1_0 : Ref sig .tc).ty.Contents (Elt Ideal)) (P : Dev nD → Prop) : Prop :=
  ∀ i : S512x512.Idx, P (rowBlk i) → (show EReal from g i) = laid m ρ i

theorem holds_put (b : Dev nD) {off : Fin 2 → Nat} (hoff : off = ![32 * b.val, 0])
    (h : ∀ a, off a + S32x512.size a ≤ S512x512.size a)
    (g : (cc0_stg1_0 : Ref sig .tc).ty.Contents (Elt Ideal)) (w : Vec Ideal S32x512 .f32)
    (hw : ∀ y, (show EReal from w y) = (show EReal from reduced (F := Ideal) m ρ b y))
    {P : Dev nD → Prop} (hg : Holds m ρ g P) :
    Holds m ρ (putRows off h g w) (fun b' => b' = b ∨ P b') := by
  intro i hi
  by_cases hb : rowBlk i = b
  · have e1 : putRows off h g w i = w (inBlk i) := putRows_in b hoff h g w i hb
    have e2 := hw (inBlk i)
    unfold laid; rw [hb]
    exact e1.trans e2
  · have e1 : putRows off h g w i = g i := putRows_out b hoff h g w i hb
    exact e1.trans (hg i (hi.resolve_left hb))

theorem holds_outAfter (c : Dev nD) (l : List (Fin 16)) (hl : ∀ s ∈ l, s ≠ 0) :
    ∀ (base : (cc0_stg1_0 : Ref sig .tc).ty.Contents (Elt Ideal)) (P : Dev nD → Prop), Holds m ρ base P →
      Holds m ρ (outAfter m ρ c l base) (fun b' => b' ∈ l.map (peer c) ∨ P b') := by
  induction l with
  | nil => intro base P hP i hi; exact hP i (hi.resolve_left (by simp))
  | cons s l ih =>
    intro base P hP
    have hs : s ≠ 0 := hl s List.mem_cons_self
    have step := holds_put m ρ (peer c s) (outOff_eq c hs) (k0_off3_inb c (pred15 s)) base (k0_pay11 (unsq (gotAg m ρ c s)))
      (fun y => (pay11_apply _ y).trans (gotAg_apply m ρ c s y)) hP
    have hrest := ih (fun s' h' => hl s' (List.mem_cons_of_mem _ h')) _ _ step
    intro i hi
    refine hrest i ?_
    rcases hi with hi | hi
    · rw [List.map_cons, List.mem_cons] at hi
      rcases hi with hi | hi
      · exact Or.inr (Or.inl hi)
      · exact Or.inl hi
    · exact Or.inr (Or.inr hi)

theorem cover (c b : Dev nD) : b ∈ (offs.map opp).map (peer c) ∨ (b = c ∨ False) := by revert c b; decide

theorem outC_laid (c : Dev nD) (i : S512x512.Idx) :
    (show EReal from outC (F := Ideal) m ρ c i) = (show EReal from reduced (F := Ideal) m ρ (rowBlk i) (inBlk i)) := by
  have h0 : Holds m ρ (xC (F := Ideal) m ρ c) (fun _ => False) := fun _ h => h.elim
  have h1 := holds_put m ρ c (off2_eq c) (k0_off2_inb c) (xC (F := Ideal) m ρ c) (k0_pay10 (reduced (F := Ideal) m ρ c))
    (fun y => pay10_apply _ y) h0
  have h2 := holds_outAfter m ρ c (offs.map opp) (by decide) _ _ h1
  exact h2 i (cover c (rowBlk i))

theorem outC_sum (c : Dev nD) (i : S512x512.Idx) :
    (show EReal from outC (F := Ideal) m ρ c i) = ∑ d : Dev nD, (show EReal from xC (F := Ideal) m ρ d i) :=
  (outC_laid m ρ c i).trans (reduced_rowBlk m ρ i)

theorem out_eq_ref (X : (⟨Cert.ReferenceIdeal.S8192x512, .f32⟩ : BufTy).Contents (Elt Ideal))
    (hagree : ∀ c : Dev nD, m ((c : Thread nD τ).loc main_arg0) = Layout.block ⟨2, ![512, 512]⟩ ⟨2, ![8192, 512]⟩ 0 16 c X)
    (c : Dev nD) :
    outC (F := Ideal) m ρ c = Cert.ReferenceIdeal.Read.val_main_v1 (F := Ideal) X := by
  funext i
  have h1 : (show EReal from outC (F := Ideal) m ρ c i) = ∑ d : Fin 16, (show EReal from X (rowAt d i)) :=
    (outC_sum m ρ c i).trans (Finset.sum_congr rfl fun d _ => xC_block m ρ X d (hagree d) i)
  exact h1.trans (ref_apply X i).symm

end Cert.KernelIdeal.RefValue

end
-- ==== Proof.RefAlg.lean ====
import proofs.«901016_g7700000000001017_dist_rs_then_ag_i_m512_n512_v7x_i16_bf16_1_alg».proof.Proof.RefValue
import proofs.«901016_g7700000000001017_dist_rs_then_ag_i_m512_n512_v7x_i16_bf16_1_alg».proof.Proof.Gen.Pre_finite_inputs_Kernel

noncomputable section

namespace Cert.KernelIdeal.RefAlg

open Cert.KernelIdeal Cert.KernelIdeal.Gen Cert.KernelIdeal.Proto Cert.KernelIdeal.RefValue
open Idealize.ShloMosaic
open Idealize.ShloMosaic.TcCoe
open Idealize.SL.Sem

theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
          = Cert.ReferenceIdeal.Read.val_main_v1 (F := Ideal) (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (Cert.ReferenceIdeal.Read.val_main_v1_eq _), (h 0).2⟩)
    (Cert.ReferenceIdeal.Value.run (F := Ideal) m' g')

theorem algebraic_of_run
    (hrun : ∀ (m : (ℓ : Loc nD τ sig) → Buf (Elt Ideal) ℓ) (g : Dev nD → PrngReg),
      θ_run (Cert.KernelIdeal.defs (F := Ideal)) (onTc (τ := τ) (Cert.KernelIdeal.main (F := Ideal))) ⟨m, fun _ => 0, g⟩ (fun r => ∀ c : Dev nD,
        r.2.mem ((c.tc : Thread nD τ).loc main_v1) = outC (F := Ideal) m g c
        ∧ r.2.mem ((c.tc : Thread nD τ).loc main_arg0) = m ((c.tc : Thread nD τ).loc main_arg0))) :
    Cert.algebraic_KernelIdeal_ReferenceIdeal :=
  fun m g m' g' _ hagree =>
    ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)),
      (θ_run Cert.KernelIdeal.defs _ _).mono
        (fun _ h c => ⟨(h c).1.trans (out_eq_ref m g _ hagree c), (h c).2⟩) (hrun m g),
      ref_run m' g'⟩

end Cert.KernelIdeal.RefAlg

end
-- ==== Proof.lean ====
/-
  The exchange's claim: one run of the idealized program, generic in the float instance, gives both frames and the
  value; the program as printed is the same text, so its frame is that run read over words.
-/
import proofs.«901016_g7700000000001017_dist_rs_then_ag_i_m512_n512_v7x_i16_bf16_1_alg».proof.Defs
import proofs.«901016_g7700000000001017_dist_rs_then_ag_i_m512_n512_v7x_i16_bf16_1_alg».proof.Proof.Gen.Kernel
import proofs.«901016_g7700000000001017_dist_rs_then_ag_i_m512_n512_v7x_i16_bf16_1_alg».proof.Proof.Gen.KernelIdeal
import proofs.«901016_g7700000000001017_dist_rs_then_ag_i_m512_n512_v7x_i16_bf16_1_alg».proof.Proof.Gen.ReferenceIdeal
import proofs.«901016_g7700000000001017_dist_rs_then_ag_i_m512_n512_v7x_i16_bf16_1_alg».proof.Proof.Gen.Pre_finite_inputs_Kernel
import proofs.«901016_g7700000000001017_dist_rs_then_ag_i_m512_n512_v7x_i16_bf16_1_alg».proof.Proof.Gen.Pre_finite_inputs_ReferenceIdeal
import proofs.«901016_g7700000000001017_dist_rs_then_ag_i_m512_n512_v7x_i16_bf16_1_alg».proof.Proof.Assemble
import proofs.«901016_g7700000000001017_dist_rs_then_ag_i_m512_n512_v7x_i16_bf16_1_alg».proof.Proof.Facts
import proofs.«901016_g7700000000001017_dist_rs_then_ag_i_m512_n512_v7x_i16_bf16_1_alg».proof.Proof.Body
import proofs.«901016_g7700000000001017_dist_rs_then_ag_i_m512_n512_v7x_i16_bf16_1_alg».proof.Proof.RefAlg
import Idealize.ShloMosaic.Adequacy
import Idealize.ShloMosaic.Init

noncomputable section

namespace Cert.Proof

open Idealize.ShloMosaic Idealize.SL.Sem

theorem body {F : FTy → Type} [FloatOps F] : Cert.KernelIdeal.Assemble.BodySound (F := F) := fun m ρ K c Kt =>
  Cert.KernelIdeal.Body.sound_body m ρ Cert.KernelIdeal.Facts.viewFacts (Cert.KernelIdeal.Facts.moreFacts m ρ) K c Kt

/-- The two printed programs have the same body table: their one label runs the same body. -/
theorem defs_words : Cert.Kernel.defs (F := Bits) = Cert.KernelIdeal.defs (F := Bits) :=
  congrArg (Pipeline.defs Cert.KernelIdeal.pcfgs) (by
    unfold Cert.Kernel.defs₀ Cert.KernelIdeal.defs₀
    exact congrArg Defs.onTc (funext fun l => funext fun a => match l, a with | 0, (t, s) => rfl))

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    fun m g _ => defs_words ▸ Cert.KernelIdeal.Assemble.frame (F := Bits) m g body,
    fun m g _ => Cert.KernelIdeal.Assemble.frame m g body,
    Cert.KernelIdeal.RefValue.frame_ri,
    trivial,
    Cert.KernelIdeal.RefAlg.algebraic_of_run fun m g => Cert.KernelIdeal.Assemble.run m g body⟩

end Cert.Proof

end
